-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000x128 : Shape := ⟨2, ![640000, 128]⟩
abbrev S640000x16 : Shape := ⟨2, ![640000, 16]⟩
abbrev S2x640000 : Shape := ⟨2, ![2, 640000]⟩
abbrev S128x128 : Shape := ⟨2, ![128, 128]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S640000x16 : S_.BroadcastsInDim S640000x16 (![] : Fin 0 → Fin S640000x16.rank)
  reducesTo_S640000x16_S_d0_1 : S640000x16.ReducesTo [0, 1] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part5 {F : FTy → Type} [FloatOps F] (main_arg3 : IVec S2x640000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S2x640000 32 := broadcastInDim S2x640000 ![] bcast_S_S2x640000 main_c_34
  let main_v90 : IVec S2x640000 1 := cmpi .sge main_arg3 main_v89
  let main_c_35 : IVec S_ 32 := constantI S_ 32 100000#32
  let main_v91 : IVec S2x640000 32 := broadcastInDim S2x640000 ![] bcast_S_S2x640000 main_c_35
  let main_v92 : IVec S2x640000 1 := cmpi .slt main_arg3 main_v91
  let main_v93 : IVec S2x640000 1 := andi main_v90 main_v92
  let main_c_36 : IVec S_ 1 := constantI S_ 1 1#1
  let main_v94 : IVec S_ 1 := (fun x v => Host.reduce IntOp.andi x v reducesTo_S2x640000_S_d0_1 h_S_) main_v93 main_c_36
  let main_v95 : IVec S_ 1 := andi main_v88 main_v94
  main_v95

def fn_part4 {F : FTy → Type} [FloatOps F] (main_arg3 : IVec S2x640000 32) (main_arg15 : FVec F S256 .f32) (main_arg16 : FVec F S256 .f32) (main_arg17 : FVec F S256x128 .f32) (main_arg18 : FVec F S128 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg3 main_v83 main_v84 main_cst_32

def fn_part3 {F : FTy → Type} [FloatOps F] (main_arg3 : IVec S2x640000 32) (main_arg12 : FVec F S256 .f32) (main_arg13 : FVec F S256 .f32) (main_arg14 : FVec F S256x256 .f32) (main_arg15 : FVec F S256 .f32) (main_arg16 : FVec F S256 .f32) (main_arg17 : FVec F S256x128 .f32) (main_arg18 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg3 main_arg15 main_arg16 main_arg17 main_arg18 main_v63 main_v67

def fn_part2 {F : FTy → Type} [FloatOps F] (main_arg3 : IVec S2x640000 32) (main_arg8 : FVec F S128 .f32) (main_arg9 : FVec F S128 .f32) (main_arg10 : FVec F S128 .f32) (main_arg11 : FVec F S128x256 .f32) (main_arg12 : FVec F S256 .f32) (main_arg13 : FVec F S256 .f32) (main_arg14 : FVec F S256x256 .f32) (main_arg15 : FVec F S256 .f32) (main_arg16 : FVec F S256 .f32) (main_arg17 : FVec F S256x128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg3 main_arg12 main_arg13 main_arg14 main_arg15 main_arg16 main_arg17 main_arg18 main_v48 main_v49 main_v50

def fn_part1 {F : FTy → Type} [FloatOps F] (main_arg3 : IVec S2x640000 32) (main_arg5 : FVec F S128x128 .f32) (main_arg6 : FVec F S128x128 .f32) (main_arg7 : FVec F S16x128 .f32) (main_arg8 : FVec F S128 .f32) (main_arg9 : FVec F S128 .f32) (main_arg10 : FVec F S128 .f32) (main_arg11 : FVec F S128x256 .f32) (main_arg12 : FVec F S256 .f32) (main_arg13 : FVec F S256 .f32) (main_arg14 : FVec F S256x256 .f32) (main_arg15 : FVec F S256 .f32) (main_arg16 : FVec F S256 .f32) (main_arg17 : FVec F S256x128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S16x128 .f32 := Host.absf main_arg7
  let main_cst_10 : FVec F S_ .f32 := constant S_ .f32 0x7F800000#32
  let main_v30 : FVec F S16x128 .f32 := broadcastInDim S16x128 ![] bcast_S_S16x128 main_cst_10
  let main_v31 : IVec S16x128 1 := cmpf .olt main_v29 main_v30
  let main_c_11 : IVec S_ 1 := constantI S_ 1 1#1
  let main_v32 : IVec S_ 1 := (fun x v => Host.reduce IntOp.andi x v reducesTo_S16x128_S_d0_1 h_S_) main_v31 main_c_11
  let main_v33 : IVec S_ 1 := andi main_v28 main_v32
  fn_part2 (F := F) main_arg3 main_arg8 main_arg9 main_arg10 main_arg11 main_arg12 main_arg13 main_arg14 main_arg15 main_arg16 main_arg17 main_arg18 main_v33

def fn {F : FTy → Type} [FloatOps F] (main_arg0 : FVec F S100000x128 .f32) (main_arg1 : FVec F S640000x128 .f32) (main_arg2 : FVec F S640000x16 .f32) (main_arg3 : IVec S2x640000 32) (main_arg4 : FVec F S128x128 .f32) (main_arg5 : FVec F S128x128 .f32) (main_arg6 : FVec F S128x128 .f32) (main_arg7 : FVec F S16x128 .f32) (main_arg8 : FVec F S128 .f32) (main_arg9 : FVec F S128 .f32) (main_arg10 : FVec F S128 .f32) (main_arg11 : FVec F S128x256 .f32) (main_arg12 : FVec F S256 .f32) (main_arg13 : FVec F S256 .f32) (main_arg14 : FVec F S256x256 .f32) (main_arg15 : FVec F S256 .f32) (main_arg16 : FVec F S256 .f32) (main_arg17 : FVec F S256x128 .f32) (main_arg18 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S640000x16 .f32 := Host.absf main_arg2
  let main_cst_2 : FVec F S_ .f32 := constant S_ .f32 0x7F800000#32
  let main_v10 : FVec F S640000x16 .f32 := broadcastInDim S640000x16 ![] bcast_S_S640000x16 main_cst_2
  let main_v11 : IVec S640000x16 1 := cmpf .olt main_v9 main_v10
  let main_c_3 : IVec S_ 1 := constantI S_ 1 1#1
  let main_v12 : IVec S_ 1 := (fun x v => Host.reduce IntOp.andi x v reducesTo_S640000x16_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S640000x128 : Shape := ⟨2, ![640000, 128]⟩
abbrev S640000x16 : Shape := ⟨2, ![640000, 16]⟩
abbrev S2x640000 : Shape := ⟨2, ![2, 640000]⟩
abbrev S128x128 : Shape := ⟨2, ![128, 128]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S1x640000 : Shape := ⟨2, ![1, 640000]⟩
abbrev S640000 : Shape := ⟨1, ![640000]⟩
abbrev S5000x128 : Shape := ⟨2, ![5000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S4000x128 : Shape := ⟨2, ![4000, 128]⟩
abbrev S4000x16 : Shape := ⟨2, ![4000, 16]⟩
abbrev S8x128 : Shape := ⟨2, ![8, 128]⟩
abbrev S1x128 : Shape := ⟨2, ![1, 128]⟩
abbrev S16x256 : Shape := ⟨2, ![16, 256]⟩
abbrev S2000x128 : Shape := ⟨2, ![2000, 128]⟩
abbrev S8x256 : Shape := ⟨2, ![8, 256]⟩
abbrev S2000x256 : Shape := ⟨2, ![2000, 256]⟩
abbrev S1x256 : Shape := ⟨2, ![1, 256]⟩

abbrev nBuf : Space → Nat
  | .hbm => 156
  | .vmem => 60
  | .smem => 0
  | _ => 0

abbrev hbmTy0_0 (i : Nat) : BufTy := match i % 128 with
  | 0 => ⟨S100000x128, .f32⟩
  | 1 => ⟨S640000x128, .f32⟩
  | 2 => ⟨S640000x16, .f32⟩
  | 3 => ⟨S2x640000, .i32⟩
  | 4 => ⟨S128x128, .f32⟩
  | 5 => ⟨S128x128, .f32⟩
  | 6 => ⟨S128x128, .f32⟩
  | 7 => ⟨S16x128, .f32⟩
  | 8 => ⟨S128, .f32⟩
  | 9 => ⟨S128, .f32⟩
  | 10 => ⟨S128, .f32⟩
  | 11 => ⟨S128x256, .f32⟩
  | 12 => ⟨S256, .f32⟩
  | 13 => ⟨S256, .f32⟩
  | 14 => ⟨S256x256, .f32⟩
  | 15 => ⟨S256, .f32⟩
  | 16 => ⟨S256, .f32⟩
  | 17 => ⟨S256x128, .f32⟩
  | 18 => ⟨S128, .f32⟩
  | 19 => ⟨S1x640000, .i32⟩
  | 20 => ⟨S640000, .i32⟩
  | 21 => ⟨S1x640000, .i32⟩
  | 22 => ⟨S640000, .i32⟩
  | 23 => ⟨S100000x128, .f32⟩
  | 24 => ⟨S100000x128, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S1, .i32⟩
  | 34 => ⟨S_, .i32⟩
  | 35 => ⟨S640000x1, .i32⟩
  | 36 => ⟨S640000x1, .i1⟩
  | 37 => ⟨S1x1, .i32⟩
  | 38 => ⟨S640000x1, .i32⟩
  | 39 => ⟨S640000x1, .i1⟩
  | 40 => ⟨S640000x1, .i1⟩
  | 41 => ⟨S_, .i1⟩
  | 42 => ⟨S640000, .i1⟩
  | 43 => ⟨S640000x128, .f32⟩
  | 44 => ⟨S640000x128, .i1⟩
  | 45 => ⟨S_, .f32⟩
  | 46 => ⟨S640000x128, .f32⟩
  | 47 => ⟨S640000x128, .f32⟩
  | 48 => ⟨S_, .i32⟩
  | 49 => ⟨S640000, .i32⟩
  | 50 => ⟨S640000, .i1⟩
  | 51 => ⟨S_, .i32⟩
  | 52 => ⟨S640000, .i32⟩
  | 53 => ⟨S640000, .i32⟩
  | 54 => ⟨S640000, .i32⟩
  | 55 => ⟨S640000x1, .i32⟩
  | 56 => ⟨S1, .i32⟩
  | 57 => ⟨S_, .i32⟩
  | 58 => ⟨S640000x1, .i32⟩
  | 59 => ⟨S640000x1, .i1⟩
  | 60 => ⟨S1x1, .i32⟩
  | 61 => ⟨S640000x1, .i32⟩
  | 62 => ⟨S640000x1, .i1⟩
  | 63 => ⟨S640000x1, .i1⟩
  | 64 => ⟨S_, .i1⟩
  | 65 => ⟨S640000, .i1⟩
  | 66 => ⟨S640000x128, .f32⟩
  | 67 => ⟨S640000x128, .i1⟩
  | 68 => ⟨S_, .f32⟩
  | 69 => ⟨S640000x128, .f32⟩
  | 70 => ⟨S640000x128, .f32⟩
  | 71 => ⟨S640000x128, .f32⟩
  | 72 => ⟨S16x128, .f32⟩
  | 73 => ⟨S16x128, .f32⟩
  | 74 => ⟨S_, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S_, .f32⟩
  | 82 => ⟨S128, .f32⟩
  | 83 => ⟨S128, .f32⟩
  | 84 => ⟨S_, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S128, .f32⟩
  | 92 => ⟨S1x128, .f32⟩
  | 93 => ⟨S640000x128, .f32⟩
  | 94 => ⟨S640000x128, .f32⟩
  | 95 => ⟨S1x128, .f32⟩
  | 96 => ⟨S640000x128, .f32⟩
  | 97 => ⟨S640000x128, .f32⟩
  | 98 => ⟨S_, .f32⟩
  | 99 => ⟨S128, .f32⟩
  | 100 => ⟨S128, .f32⟩
  | 101 => ⟨S128, .f32⟩
  | 102 => ⟨S1x128, .f32⟩
  | 103 => ⟨S640000x128, .f32⟩
  | 104 => ⟨S640000x128, .f32⟩
  | 105 => ⟨S1x128, .f32⟩
  | 106 => ⟨S640000x128, .f32⟩
  | 107 => ⟨S640000x128, .f32⟩
  | 108 => ⟨S_, .f32⟩
  | 109 => ⟨S640000x128, .f32⟩
  | 110 => ⟨S640000x128, .f32⟩
  | 111 => ⟨S_, .f32⟩
  | 112 => ⟨S100000x128, .f32⟩
  | 113 => ⟨S640000x1, .i32⟩
  | 114 => ⟨S100000x128, .f32⟩
  | 115 => ⟨S16x256, .f32⟩
  | 116 => ⟨S16x256, .f32⟩
  | 117 => ⟨S_, .f32⟩
  | 118 => ⟨S256, .f32⟩
  | 119 => ⟨S_, .f32⟩
  | 120 => ⟨S256, .f32⟩
  | 121 => ⟨S256, .f32⟩
  | 122 => ⟨S_, .f32⟩
  | 123 => ⟨S256, .f32⟩
  | 124 => ⟨S_, .f32⟩
  | 125 => ⟨S256, .f32⟩
  | 126 => ⟨S256, .f32⟩
  | 127 => ⟨S_, .f32⟩
  | _ => ⟨S100000x128, .f32⟩

abbrev hbmTy0_1 (i : Nat) : BufTy := match i % 128 with
  | 0 => ⟨S256, .f32⟩
  | 1 => ⟨S256, .f32⟩
  | 2 => ⟨S_, .f32⟩
  | 3 => ⟨S256, .f32⟩
  | 4 => ⟨S256, .f32⟩
  | 5 => ⟨S256, .f32⟩
  | 6 => ⟨S256, .f32⟩
  | 7 => ⟨S16x256, .f32⟩
  | 8 => ⟨S16x256, .f32⟩
  | 9 => ⟨S_, .f32⟩
  | 10 => ⟨S256, .f32⟩
  | 11 => ⟨S_, .f32⟩
  | 12 => ⟨S256, .f32⟩
  | 13 => ⟨S256, .f32⟩
  | 14 => ⟨S_, .f32⟩
  | 15 => ⟨S256, .f32⟩
  | 16 => ⟨S_, .f32⟩
  | 17 => ⟨S256, .f32⟩
  | 18 => ⟨S256, .f32⟩
  | 19 => ⟨S_, .f32⟩
  | 20 => ⟨S256, .f32⟩
  | 21 => ⟨S256, .f32⟩
  | 22 => ⟨S_, .f32⟩
  | 23 => ⟨S256, .f32⟩
  | 24 => ⟨S256, .f32⟩
  | 25 => ⟨S256, .f32⟩
  | 26 => ⟨S256, .f32⟩
  | 27 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x16, .f32⟩
  | .local _ .vmem, ⟨13, _⟩ => ⟨S4000x16, .f32⟩
  | .local _ .vmem, ⟨14, _⟩ => ⟨S4000x128, .f32⟩
  | .local _ .vmem, ⟨15, _⟩ => ⟨S4000x128, .f32⟩
  | .local _ .vmem, ⟨16, _⟩ => ⟨S16x128, .f32⟩
  | .local _ .vmem, ⟨17, _⟩ => ⟨S128, .f32⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S2000x128, .f32⟩
  | .local _ .vmem, ⟨26, _⟩ => ⟨S2000x128, .f32⟩
  | .local _ .vmem, ⟨27, _⟩ => ⟨S128x256, .f32⟩
  | .local _ .vmem, ⟨28, _⟩ => ⟨S8x256, .f32⟩
  | .local _ .vmem, ⟨29, _⟩ => ⟨S8x256, .f32⟩
  | .local _ .vmem, ⟨30, _⟩ => ⟨S8x256, .f32⟩
  | .local _ .vmem, ⟨31, _⟩ => ⟨S8x256, .f32⟩
  | .local _ .vmem, ⟨32, _⟩ => ⟨S2000x128, .f32⟩
  | .local _ .vmem, ⟨33, _⟩ => ⟨S2000x128, .f32⟩
  | .local _ .vmem, ⟨34, _⟩ => ⟨S128x256, .f32⟩
  | .local _ .vmem, ⟨35, _⟩ => ⟨S256, .f32⟩
  | .local _ .vmem, ⟨36, _⟩ => ⟨S256, .f32⟩
  | .local _ .vmem, ⟨37, _⟩ => ⟨S256, .f32⟩
  | .local _ .vmem, ⟨38, _⟩ => ⟨S256, .f32⟩
  | .local _ .vmem, ⟨39, _⟩ => ⟨S256x256, .f32⟩
  | .local _ .vmem, ⟨40, _⟩ => ⟨S8x256, .f32⟩
  | .local _ .vmem, ⟨41, _⟩ => ⟨S8x256, .f32⟩
  | .local _ .vmem, ⟨42, _⟩ => ⟨S8x256, .f32⟩
  | .local _ .vmem, ⟨43, _⟩ => ⟨S8x256, .f32⟩
  | .local _ .vmem, ⟨44, _⟩ => ⟨S2000x128, .f32⟩
  | .local _ .vmem, ⟨45, _⟩ => ⟨S2000x128, .f32⟩
  | .local _ .vmem, ⟨46, _⟩ => ⟨S128x256, .f32⟩
  | .local _ .vmem, ⟨47, _⟩ => ⟨S256, .f32⟩
  | .local _ .vmem, ⟨48, _⟩ => ⟨S256, .f32⟩
  | .local _ .vmem, ⟨49, _⟩ => ⟨S256, .f32⟩
  | .local _ .vmem, ⟨50, _⟩ => ⟨S256, .f32⟩
  | .local _ .vmem, ⟨51, _⟩ => ⟨S256x256, .f32⟩
  | .local _ .vmem, ⟨52, _⟩ => ⟨S256, .f32⟩
  | .local _ .vmem, ⟨53, _⟩ => ⟨S256, .f32⟩
  | .local _ .vmem, ⟨54, _⟩ => ⟨S256, .f32⟩
  | .local _ .vmem, ⟨55, _⟩ => ⟨S256, .f32⟩
  | .local _ .vmem, ⟨56, _⟩ => ⟨S256x128, .f32⟩
  | .local _ .vmem, ⟨57, _⟩ => ⟨S128, .f32⟩
  | .local _ .vmem, ⟨58, _⟩ => ⟨S2000x128, .f32⟩
  | .local _ .vmem, ⟨59, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v5 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v6 : Ref sig .tc := ⟨.hbm, 70, rfl⟩
abbrev main_v7_0 : Ref sig .tc := ⟨.hbm, 71, rfl⟩
abbrev main_v7_1 : Ref sig .tc := ⟨.hbm, 72, rfl⟩
abbrev main_v7_2 : Ref sig .tc := ⟨.hbm, 73, rfl⟩
abbrev main_cst : Ref sig .tc := ⟨.hbm, 74, rfl⟩
abbrev main_v8 : Ref sig .tc := ⟨.hbm, 75, rfl⟩
abbrev main_cst_0 : Ref sig .tc := ⟨.hbm, 76, rfl⟩
abbrev main_v9 : Ref sig .tc := ⟨.hbm, 77, rfl⟩
abbrev main_v10 : Ref sig .tc := ⟨.hbm, 78, rfl⟩
abbrev main_cst_1 : Ref sig .tc := ⟨.hbm, 79, rfl⟩
abbrev main_v11 : Ref sig .tc := ⟨.hbm, 80, rfl⟩
abbrev main_cst_2 : Ref sig .tc := ⟨.hbm, 81, rfl⟩
abbrev main_v12 : Ref sig .tc := ⟨.hbm, 82, rfl⟩
abbrev main_v13 : Ref sig .tc := ⟨.hbm, 83, rfl⟩
abbrev main_cst_3 : Ref sig .tc := ⟨.hbm, 84, rfl⟩
abbrev main_v14 : Ref sig .tc := ⟨.hbm, 85, rfl⟩
abbrev main_v15 : Ref sig .tc := ⟨.hbm, 86, rfl⟩
abbrev main_cst_4 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_cst_5 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_call2_cst : Ref sig .tc := ⟨.hbm, 108, rfl⟩
abbrev main_call2_v0 : Ref sig .tc := ⟨.hbm, 109, rfl⟩
abbrev main_v35 : Ref sig .tc := ⟨.hbm, 110, rfl⟩
abbrev main_cst_6 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39_0 : Ref sig .tc := ⟨.hbm, 115, rfl⟩
abbrev main_v39_1 : Ref sig .tc := ⟨.hbm, 116, rfl⟩
abbrev main_cst_7 : Ref sig .tc := ⟨.hbm, 117, rfl⟩
abbrev main_v40 : Ref sig .tc := ⟨.hbm, 118, rfl⟩
abbrev main_cst_8 : Ref sig .tc := ⟨.hbm, 119, rfl⟩
abbrev main_v41 : Ref sig .tc := ⟨.hbm, 120, rfl⟩
abbrev main_v42 : Ref sig .tc := ⟨.hbm, 121, rfl⟩
abbrev main_cst_9 : Ref sig .tc := ⟨.hbm, 122, rfl⟩
abbrev main_v43 : Ref sig .tc := ⟨.hbm, 123, rfl⟩
abbrev main_cst_10 : Ref sig .tc := ⟨.hbm, 124, rfl⟩
abbrev main_v44 : Ref sig .tc := ⟨.hbm, 125, rfl⟩
abbrev main_v45 : Ref sig .tc := ⟨.hbm, 126, rfl⟩
abbrev main_cst_11 : Ref sig .tc := ⟨.hbm, 127, rfl⟩
abbrev main_v46 : Ref sig .tc := ⟨.hbm, 128, rfl⟩
abbrev main_v47 : Ref sig .tc := ⟨.hbm, 129, rfl⟩
abbrev main_cst_12 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52_0 : Ref sig .tc := ⟨.hbm, 135, rfl⟩
abbrev main_v52_1 : Ref sig .tc := ⟨.hbm, 136, rfl⟩
abbrev main_cst_13 : Ref sig .tc := ⟨.hbm, 137, rfl⟩
abbrev main_v53 : Ref sig .tc := ⟨.hbm, 138, rfl⟩
abbrev main_cst_14 : Ref sig .tc := ⟨.hbm, 139, rfl⟩
abbrev main_v54 : Ref sig .tc := ⟨.hbm, 140, rfl⟩
abbrev main_v55 : Ref sig .tc := ⟨.hbm, 141, rfl⟩
abbrev main_cst_15 : Ref sig .tc := ⟨.hbm, 142, rfl⟩
abbrev main_v56 : Ref sig .tc := ⟨.hbm, 143, rfl⟩
abbrev main_cst_16 : Ref sig .tc := ⟨.hbm, 144, rfl⟩
abbrev main_v57 : Ref sig .tc := ⟨.hbm, 145, rfl⟩
abbrev main_v58 : Ref sig .tc := ⟨.hbm, 146, rfl⟩
abbrev main_cst_17 : Ref sig .tc := ⟨.hbm, 147, rfl⟩
abbrev main_v59 : Ref sig .tc := ⟨.hbm, 148, rfl⟩
abbrev main_v60 : Ref sig .tc := ⟨.hbm, 149, rfl⟩
abbrev main_cst_18 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc3_stg8_0 : Ref sig .tc := ⟨.vmem, 42, rfl⟩
abbrev cc3_stg8_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg8_0 : Ref sig .tc := ⟨.vmem, 53, rfl⟩
abbrev cc4_stg9_0 : Ref sig .tc := ⟨.vmem, 54, rfl⟩
abbrev cc4_stg10_0 : Ref sig .tc := ⟨.vmem, 55, rfl⟩
abbrev cc4_stg11_0 : Ref sig .tc := ⟨.vmem, 56, rfl⟩
abbrev cc4_stg12_0 : Ref sig .tc := ⟨.vmem, 57, rfl⟩
abbrev cc4_stg13_0 : Ref sig .tc := ⟨.vmem, 58, rfl⟩
abbrev cc4_stg13_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem3_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc3_sem8_0 : DmaSem sig := 42
abbrev cc3_sem8_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem8_0 : DmaSem sig := 53
abbrev cc4_sem9_0 : DmaSem sig := 54
abbrev cc4_sem10_0 : DmaSem sig := 55
abbrev cc4_sem11_0 : DmaSem sig := 56
abbrev cc4_sem12_0 : DmaSem sig := 57
abbrev cc4_sem13_0 : DmaSem sig := 58
abbrev cc4_sem13_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 80], ![false, false]⟩

def cc1_transform_0 (i : grid1.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S16x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S8x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 25], ![false, false]⟩

def cc3_transform_0 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S8x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S8x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S256 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S256 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S256x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S2000x128 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S8x128_S8x128_0_0 : ∀ a, (![0, 0] : Fin 2 → Nat) a + S8x128.size a ≤ S8x128.size a
  h_S8x128 : 0 < S8x128.numel
  inb_S4000x16_S4000x16_0_0 : ∀ a, (![0, 0] : Fin 2 → Nat) a + S4000x16.size a ≤ S4000x16.size a
  h_S4000x16 : 0 < S4000x16.numel
  inb_S16x128_S16x128_0_0 : ∀ a, (![0, 0] : Fin 2 → Nat) a + S16x128.size a ≤ S16x128.size a
  h_S16x128 : 0 < S16x128.numel
  inb_S4000x128_S4000x128_0_0 : ∀ a, (![0, 0] : Fin 2 → Nat) a + S4000x128.size a ≤ S4000x128.size a
  h_S4000x128 : 0 < S4000x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  shapeCasts_S4000x128_S4000x128 : S4000x128.ShapeCasts S4000x128
  reduces_S4000x128_S128 : S4000x128.Reduces [0] S128
  shapeCasts_S8x128_S8x128 : S8x128.ShapeCasts S8x128
  shapeCasts_S1x128_S1x128 : S1x128.ShapeCasts S1x128
  broadcasts_S1x128_S8x128 : S1x128.Broadcasts S8x128
  reducesTo_S16x128_S128_d0 : S16x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S100000x128 : S_.BroadcastsInDim S100000x128 (![] : Fin 0 → Fin S100000x128.rank)
  inb_S8x256_S8x256_0_0 : ∀ a, (![0, 0] : Fin 2 → Nat) a + S8x256.size a ≤ S8x256.size a
  h_S8x256 : 0 < S8x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  reduces_S2000x256_S256 : S2000x256.Reduces [0] S256
  shapeCasts_S8x256_S8x256 : S8x256.ShapeCasts S8x256
  shapeCasts_S256_S1x256 : S256.ShapeCasts S1x256
  shapeCasts_S1x256_S1x256 : S1x256.ShapeCasts S1x256
  broadcasts_S1x256_S8x256 : S1x256.Broadcasts S8x256
  reducesTo_S16x256_S256_d0 : S16x256.ReducesTo [0] S256
  bcast_S_S256 : S_.BroadcastsInDim S256 (![] : Fin 0 → Fin S256.rank)
  inb_S256_S256_0 : ∀ a, (![0] : Fin 1 → Nat) a + S256.size a ≤ S256.size a
  h_S256 : 0 < S256.numel
  shapeCasts_S256_S256 : S256.ShapeCasts S256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  broadcasts_S1x128_S2000x128 : S1x128.Broadcasts S2000x128
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  dot_S4000x16_S16x128_S4000x128_1_0_0_1_n_n_wf : DotDims.WF S4000x16 S16x128 S4000x128 [1] [0] [0] [1] [] []
  dot_S4000x128_S128x128_S4000x128_1_0_0_1_n_n_wf : DotDims.WF S4000x128 S128x128 S4000x128 [1] [0] [0] [1] [] []
  scatter_S100000x128_S640000x1_S640000x128_1_0_0_1_wf : ScatterDims.WF S100000x128 S640000x1 S640000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S640000x128.size a
  hwx1_1 : ∀ i : grid1.Coords, EltTy.bits .f32 = 32 ∨ (Rect.block (s := S640000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S640000x16.size a
  hwx1_2 : ∀ i : grid1.Coords, EltTy.bits .f32 = 32 ∨ (Rect.block (s := S640000x16) S4000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S640000x128.size a
  hwx1_3 : ∀ i : grid1.Coords, EltTy.bits .f32 = 32 ∨ (Rect.block (s := S640000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x128.size a ≤ S16x128.size a
  hwx1_4 : ∀ i : grid1.Coords, EltTy.bits .f32 = 32 ∨ (Rect.block (s := S16x128) S16x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S640000x128.size a
  hwx1_7 : ∀ i : grid1.Coords, EltTy.bits .f32 = 32 ∨ (Rect.block (s := S640000x128) S4000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S16x128.size a
  hwx1_8 : ∀ i : grid1.Coords, EltTy.bits .f32 = 32 ∨ (Rect.block (s := S16x128) S8x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128.size a ≤ S16x128.size a
  hwx1_9 : ∀ i : grid1.Coords, EltTy.bits .f32 = 32 ∨ (Rect.block (s := S16x128) S8x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x256.size a ≤ S16x256.size a
  hwx2_2 : ∀ i : grid2.Coords, EltTy.bits .f32 = 32 ∨ (Rect.block (s := S16x256) S8x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x256.size a ≤ S16x256.size a
  hwx2_3 : ∀ i : grid2.Coords, EltTy.bits .f32 = 32 ∨ (Rect.block (s := S16x256) S8x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8x256.size a ≤ S16x256.size a
  hwx3_7 : ∀ i : grid3.Coords, EltTy.bits .f32 = 32 ∨ (Rect.block (s := S16x256) S8x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8x256.size a ≤ S16x256.size a
  hwx3_8 : ∀ i : grid3.Coords, EltTy.bits .f32 = 32 ∨ (Rect.block (s := S16x256) S8x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256.size a ≤ S256.size a
  hwx4_5 : ∀ i : grid4.Coords, EltTy.bits .f32 = 32 ∨ (Rect.block (s := S256) S256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x256.size a ≤ S256x256.size a
  hwx4_6 : ∀ i : grid4.Coords, EltTy.bits .f32 = 32 ∨ (Rect.block (s := S256x256) S256x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256.size a ≤ S256.size a
  hwx4_7 : ∀ i : grid4.Coords, EltTy.bits .f32 = 32 ∨ (Rect.block (s := S256) S256.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S256.size a ≤ S256.size a
  hwx4_8 : ∀ i : grid4.Coords, EltTy.bits .f32 = 32 ∨ (Rect.block (s := S256) S256.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S256.size a ≤ S256.size a
  hwx4_9 : ∀ i : grid4.Coords, EltTy.bits .f32 = 32 ∨ (Rect.block (s := S256) S256.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S256.size a ≤ S256.size a
  hwx4_10 : ∀ i : grid4.Coords, EltTy.bits .f32 = 32 ∨ (Rect.block (s := S256) S256.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S256x128.size a ≤ S256x128.size a
  hwx4_11 : ∀ i : grid4.Coords, EltTy.bits .f32 = 32 ∨ (Rect.block (s := S256x128) S256x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S128.size a ≤ S128.size a
  hwx4_12 : ∀ i : grid4.Coords, EltTy.bits .f32 = 32 ∨ (Rect.block (s := S128) S128.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S2000x128.size a ≤ S100000x128.size a
  hwx4_13 : ∀ i : grid4.Coords, EltTy.bits .f32 = 32 ∨ (Rect.block (s := S100000x128) S2000x128.size (cc4_transform_13 i) (hinb4_13 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7_1) S8x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v7_2) S8x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v38) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39_0) S8x256.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39_1) S8x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg14) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v52_0) S8x256.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v52_1) S8x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v38) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg14) S256x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v60) S256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v64) S256.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg15) S256.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg16) S256.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg17) S256x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_arg18) S128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v65) S2000x128.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S100000x128 : Shape := ⟨2, ![100000, 128]⟩
abbrev S640000x128 : Shape := ⟨2, ![640000, 128]⟩
abbrev S640000x16 : Shape := ⟨2, ![640000, 16]⟩
abbrev S2x640000 : Shape := ⟨2, ![2, 640000]⟩
abbrev S128x128 : Shape := ⟨2, ![128, 128]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S100000x256 : Shape := ⟨2, ![100000, 256]⟩
abbrev S1x256 : Shape := ⟨2, ![1, 256]⟩

abbrev nBuf : Space → Nat
  | .hbm => 202
  | .vmem => 0
  | .smem => 0
  | _ => 0

abbrev hbmTy0_0 (i : Nat) : BufTy := match i % 128 with
  | 0 => ⟨S100000x128, .f32⟩
  | 1 => ⟨S640000x128, .f32⟩
  | 2 => ⟨S640000x16, .f32⟩
  | 3 => ⟨S2x640000, .i32⟩
  | 4 => ⟨S128x128, .f32⟩
  | 5 => ⟨S128x128, .f32⟩
  | 6 => ⟨S128x128, .f32⟩
  | 7 => ⟨S16x128, .f32⟩
  | 8 => ⟨S128, .f32⟩
  | 9 => ⟨S128, .f32⟩
  | 10 => ⟨S128, .f32⟩
  | 11 => ⟨S128x256, .f32⟩
  | 12 => ⟨S256, .f32⟩
  | 13 => ⟨S256, .f32⟩
  | 14 => ⟨S256x256, .f32⟩
  | 15 => ⟨S256, .f32⟩
  | 16 => ⟨S256, .f32⟩
  | 17 => ⟨S256x128, .f32⟩
  | 18 => ⟨S128, .f32⟩
  | 19 => ⟨S1x640000, .i32⟩
  | 20 => ⟨S640000, .i32⟩
  | 21 => ⟨S1x640000, .i32⟩
  | 22 => ⟨S640000, .i32⟩
  | 23 => ⟨S100000x128, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S100000x128, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x128, .f32⟩
  | 43 => ⟨S640000x128, .f32⟩
  | 44 => ⟨S640000x128, .f32⟩
  | 45 => ⟨S1x128, .f32⟩
  | 46 => ⟨S640000x128, .f32⟩
  | 47 => ⟨S640000x128, .f32⟩
  | 48 => ⟨S640000x128, .f32⟩
  | 49 => ⟨S640000x128, .f32⟩
  | 50 => ⟨S640000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S640000x128, .f32⟩
  | 64 => ⟨S640000x128, .f32⟩
  | 65 => ⟨S640000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S640000x128, .f32⟩
  | 81 => ⟨S640000x128, .f32⟩
  | 82 => ⟨S1x128, .f32⟩
  | 83 => ⟨S640000x128, .f32⟩
  | 84 => ⟨S640000x128, .f32⟩
  | 85 => ⟨S_, .f32⟩
  | 86 => ⟨S128, .f32⟩
  | 87 => ⟨S128, .f32⟩
  | 88 => ⟨S128, .f32⟩
  | 89 => ⟨S1x128, .f32⟩
  | 90 => ⟨S640000x128, .f32⟩
  | 91 => ⟨S640000x128, .f32⟩
  | 92 => ⟨S1x128, .f32⟩
  | 93 => ⟨S640000x128, .f32⟩
  | 94 => ⟨S640000x128, .f32⟩
  | 95 => ⟨S_, .f32⟩
  | 96 => ⟨S640000x128, .f32⟩
  | 97 => ⟨S640000x128, .f32⟩
  | 98 => ⟨S_, .f32⟩
  | 99 => ⟨S100000x128, .f32⟩
  | 100 => ⟨S640000x1, .i32⟩
  | 101 => ⟨S100000x128, .f32⟩
  | 102 => ⟨S100000x256, .f32⟩
  | 103 => ⟨S_, .f32⟩
  | 104 => ⟨S256, .f32⟩
  | 105 => ⟨S_, .f32⟩
  | 106 => ⟨S256, .f32⟩
  | 107 => ⟨S256, .f32⟩
  | 108 => ⟨S_, .i32⟩
  | 109 => ⟨S_, .f32⟩
  | 110 => ⟨S256, .f32⟩
  | 111 => ⟨S1x256, .f32⟩
  | 112 => ⟨S_, .f32⟩
  | 113 => ⟨S1x256, .f32⟩
  | 114 => ⟨S1x256, .f32⟩
  | 115 => ⟨S100000x256, .f32⟩
  | 116 => ⟨S100000x256, .f32⟩
  | 117 => ⟨S100000x256, .f32⟩
  | 118 => ⟨S_, .f32⟩
  | 119 => ⟨S_, .f32⟩
  | 120 => ⟨S_, .f32⟩
  | 121 => ⟨S_, .f32⟩
  | 122 => ⟨S256, .f32⟩
  | 123 => ⟨S256, .f32⟩
  | 124 => ⟨S256, .f32⟩
  | 125 => ⟨S_, .f32⟩
  | 126 => ⟨S_, .i1⟩
  | 127 => ⟨S_, .f32⟩
  | _ => ⟨S100000x128, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S100000x256, .f32⟩
  | 5 => ⟨S100000x256, .f32⟩
  | 6 => ⟨S1x256, .f32⟩
  | 7 => ⟨S100000x256, .f32⟩
  | 8 => ⟨S100000x256, .f32⟩
  | 9 => ⟨S_, .f32⟩
  | 10 => ⟨S256, .f32⟩
  | 11 => ⟨S256, .f32⟩
  | 12 => ⟨S256, .f32⟩
  | 13 => ⟨S1x256, .f32⟩
  | 14 => ⟨S100000x256, .f32⟩
  | 15 => ⟨S100000x256, .f32⟩
  | 16 => ⟨S1x256, .f32⟩
  | 17 => ⟨S100000x256, .f32⟩
  | 18 => ⟨S100000x256, .f32⟩
  | 19 => ⟨S_, .f32⟩
  | 20 => ⟨S100000x256, .f32⟩
  | 21 => ⟨S100000x256, .f32⟩
  | 22 => ⟨S100000x256, .f32⟩
  | 23 => ⟨S_, .f32⟩
  | 24 => ⟨S256, .f32⟩
  | 25 => ⟨S_, .f32⟩
  | 26 => ⟨S256, .f32⟩
  | 27 => ⟨S256, .f32⟩
  | 28 => ⟨S_, .i32⟩
  | 29 => ⟨S_, .f32⟩
  | 30 => ⟨S256, .f32⟩
  | 31 => ⟨S1x256, .f32⟩
  | 32 => ⟨S_, .f32⟩
  | 33 => ⟨S1x256, .f32⟩
  | 34 => ⟨S1x256, .f32⟩
  | 35 => ⟨S100000x256, .f32⟩
  | 36 => ⟨S100000x256, .f32⟩
  | 37 => ⟨S100000x256, .f32⟩
  | 38 => ⟨S_, .f32⟩
  | 39 => ⟨S_, .f32⟩
  | 40 => ⟨S_, .f32⟩
  | 41 => ⟨S_, .f32⟩
  | 42 => ⟨S256, .f32⟩
  | 43 => ⟨S256, .f32⟩
  | 44 => ⟨S256, .f32⟩
  | 45 => ⟨S_, .f32⟩
  | 46 => ⟨S_, .i1⟩
  | 47 => ⟨S_, .f32⟩
  | 48 => ⟨S_, .f32⟩
  | 49 => ⟨S256, .f32⟩
  | 50 => ⟨S256, .f32⟩
  | 51 => ⟨S1x256, .f32⟩
  | 52 => ⟨S100000x256, .f32⟩
  | 53 => ⟨S100000x256, .f32⟩
  | 54 => ⟨S1x256, .f32⟩
  | 55 => ⟨S100000x256, .f32⟩
  | 56 => ⟨S100000x256, .f32⟩
  | 57 => ⟨S_, .f32⟩
  | 58 => ⟨S256, .f32⟩
  | 59 => ⟨S256, .f32⟩
  | 60 => ⟨S256, .f32⟩
  | 61 => ⟨S1x256, .f32⟩
  | 62 => ⟨S100000x256, .f32⟩
  | 63 => ⟨S100000x256, .f32⟩
  | 64 => ⟨S1x256, .f32⟩
  | 65 => ⟨S100000x256, .f32⟩
  | 66 => ⟨S100000x256, .f32⟩
  | 67 => ⟨S_, .f32⟩
  | 68 => ⟨S100000x256, .f32⟩
  | 69 => ⟨S100000x256, .f32⟩
  | 70 => ⟨S100000x128, .f32⟩
  | 71 => ⟨S1x128, .f32⟩
  | 72 => ⟨S100000x128, .f32⟩
  | 73 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_cst_1 : Ref sig .tc := ⟨.hbm, 67, rfl⟩
abbrev main_call0_v8 : Ref sig .tc := ⟨.hbm, 68, rfl⟩
abbrev main_call0_cst_2 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_cst_3 : Ref sig .tc := ⟨.hbm, 73, rfl⟩
abbrev main_call0_v12 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_5 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_call1_cst : Ref sig .tc := ⟨.hbm, 95, rfl⟩
abbrev main_call1_v0 : Ref sig .tc := ⟨.hbm, 96, rfl⟩
abbrev main_v47 : Ref sig .tc := ⟨.hbm, 97, rfl⟩
abbrev main_cst_6 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_7 : Ref sig .tc := ⟨.hbm, 103, rfl⟩
abbrev main_v52 : Ref sig .tc := ⟨.hbm, 104, rfl⟩
abbrev main_cst_8 : Ref sig .tc := ⟨.hbm, 105, rfl⟩
abbrev main_v53 : Ref sig .tc := ⟨.hbm, 106, rfl⟩
abbrev main_v54 : Ref sig .tc := ⟨.hbm, 107, rfl⟩
abbrev main_c_9 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_cst_1 : Ref sig .tc := ⟨.hbm, 119, rfl⟩
abbrev main_call2_v8 : Ref sig .tc := ⟨.hbm, 120, rfl⟩
abbrev main_call2_cst_2 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_cst_3 : Ref sig .tc := ⟨.hbm, 125, rfl⟩
abbrev main_call2_v12 : Ref sig .tc := ⟨.hbm, 126, rfl⟩
abbrev main_call2_cst_4 : Ref sig .tc := ⟨.hbm, 127, rfl⟩
abbrev main_call2_call0_v0 : Ref sig .tc := ⟨.hbm, 128, rfl⟩
abbrev main_call2_call0_v1 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_cst_10 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_call3_cst : Ref sig .tc := ⟨.hbm, 147, rfl⟩
abbrev main_call3_v0 : Ref sig .tc := ⟨.hbm, 148, rfl⟩
abbrev main_v71 : Ref sig .tc := ⟨.hbm, 149, rfl⟩
abbrev main_v72 : Ref sig .tc := ⟨.hbm, 150, rfl⟩
abbrev main_cst_11 : Ref sig .tc := ⟨.hbm, 151, rfl⟩
abbrev main_v73 : Ref sig .tc := ⟨.hbm, 152, rfl⟩
abbrev main_cst_12 : Ref sig .tc := ⟨.hbm, 153, rfl⟩
abbrev main_v74 : Ref sig .tc := ⟨.hbm, 154, rfl⟩
abbrev main_v75 : Ref sig .tc := ⟨.hbm, 155, rfl⟩
abbrev main_c_13 : Ref sig .tc := ⟨.hbm, 156, rfl⟩
abbrev main_call4_cst : Ref sig .tc := ⟨.hbm, 157, rfl⟩
abbrev main_call4_v0 : Ref sig .tc := ⟨.hbm, 158, rfl⟩
abbrev main_call4_v1 : Ref sig .tc := ⟨.hbm, 159, rfl⟩
abbrev main_call4_cst_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_v6 : Ref sig .tc := ⟨.hbm, 165, rfl⟩
abbrev main_call4_v7 : Ref sig .tc := ⟨.hbm, 166, rfl⟩
abbrev main_call4_cst_1 : Ref sig .tc := ⟨.hbm, 167, rfl⟩
abbrev main_call4_v8 : Ref sig .tc := ⟨.hbm, 168, rfl⟩
abbrev main_call4_cst_2 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_cst_3 : Ref sig .tc := ⟨.hbm, 173, rfl⟩
abbrev main_call4_v12 : Ref sig .tc := ⟨.hbm, 174, rfl⟩
abbrev main_call4_cst_4 : Ref sig .tc := ⟨.hbm, 175, rfl⟩
abbrev main_call4_call0_v0 : Ref sig .tc := ⟨.hbm, 176, rfl⟩
abbrev main_call4_call0_v1 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_cst_14 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_call5_cst : Ref sig .tc := ⟨.hbm, 195, rfl⟩
abbrev main_call5_v0 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  reducesTo_S640000x128_S128_d0 : S640000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S640000x128 : S_.BroadcastsInDim S640000x128 (![] : Fin 0 → Fin S640000x128.rank)
  bcast_S_S100000x128 : S_.BroadcastsInDim S100000x128 (![] : Fin 0 → Fin S100000x128.rank)
  reducesTo_S100000x256_S256_d0 : S100000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  dot_S640000x16_S16x128_S640000x128_1_0_0_1_n_n_wf : DotDims.WF S640000x16 S16x128 S640000x128 [1] [0] [0] [1] [] []
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x16_S16x128_S640000x128_1_0_0_1_n_n : DotDims S640000x16 S16x128 S640000x128 where
  lhsContracting := [1]
  rhsContracting := [0]
  lhsNonContracting := [0]
  rhsNonContracting := [1]
  lhsBatch := []
  rhsBatch := []
  wf := dot_S640000x16_S16x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (n k : Nat) := FVec Ideal (⟨2, ![n, k]⟩ : Shape) .f32
abbrev Row (k : Nat) := FVec Ideal (⟨1, ![k]⟩ : Shape) .f32

abbrev IdxCol (n : Nat) := IVec (⟨2, ![n, 1]⟩ : Shape) 32

def at2 {n k : Nat} (f : Fin n → Fin k → EReal) : Mat n k :=
  fun i => f ⟨(i 0).val, idx2_lt0 i⟩ ⟨(i 1).val, idx2_lt1 i⟩

def at1 {k : Nat} (f : Fin k → EReal) : Row k := fun i => f ⟨(i 0).val, (i 0).isLt⟩

theorem at2_apply {n k : Nat} (f : Fin n → Fin k → EReal) (a : Fin n) (b : Fin k) : at2 f (ix2 a b) = f a b := rfl
theorem at1_apply {k : Nat} (f : Fin k → EReal) (a : Fin k) : at1 f (ix1 a) = f a := rfl

/-- Every entry is a real number. -/
def IsReal {s : Shape} (X : s.Idx → EReal) : Prop := ∀ i, ∃ r : ℝ, X i = (r : EReal)

/-- Every edge index names a node. -/
def InRange (ei : IVec (⟨2, ![2, 640000]⟩ : Shape) 32) : Prop := ∀ i, 0 ≤ (ei i).toInt ∧ (ei i).toInt < 100000

def z32 : EReal := Ideal.ofBits .f32 0x00000000#32
def eight : EReal := Ideal.ofBits .f32 0x41000000#32
def nE : EReal := Ideal.ofBits .f32 0x491C4000#32
def nN : EReal := Ideal.ofBits .f32 0x47C35000#32
def eps : EReal := Ideal.ofBits .f32 0x3727C5AC#32

def mm {n k p : Nat} (X : Mat n k) (W : Mat k p) : Mat n p :=
  at2 fun a b => ∑ l : Fin k, X (ix2 a l) * W (ix2 l b)

def addRow {n d : Nat} (X : Mat n d) (b : Row d) : Mat n d := at2 fun a j => X (ix2 a j) + b (ix1 j)

def sq {n d : Nat} (X : Mat n d) : Mat n d := at2 fun a j => X (ix2 a j) * X (ix2 a j)

/-- Row `e` is the table's row named by `idx e`, read signed and clamped into the table. -/
def gatherRows {N d E : Nat} (hN : 0 < N) (T : Mat N d) (idx : IdxCol E) : Mat E d :=
  at2 fun e j => T (ix2 ⟨min (idx (ix2 e (0 : Fin 1))).toInt.toNat (N - 1), by omega⟩ j)

/-- A row of the edge indices as a column of starts, a negative index wrapped by the table's row count. -/
def wrapIdx (ei : IVec (⟨2, ![2, 640000]⟩ : Shape) 32) (row : Fin 2) : IdxCol 640000 :=
  fun i => Scalar.select (IntOp.cmpi .slt (ei (ix2 row ⟨(i 0).val, idx2_lt0 i⟩)) 0#32)
    (IntOp.addi (ei (ix2 row ⟨(i 0).val, idx2_lt0 i⟩)) 100000#32) (ei (ix2 row ⟨(i 0).val, idx2_lt0 i⟩))

def colIdx (ei : IVec (⟨2, ![2, 640000]⟩ : Shape) 32) (row : Fin 2) : IdxCol 640000 :=
  fun i => ei (ix2 row ⟨(i 0).val, idx2_lt0 i⟩)

/-- The messages summed into their destination nodes. -/
def scat (D : ScatterDims (⟨2, ![100000, 128]⟩ : Shape) (⟨2, ![640000, 1]⟩ : Shape) (⟨2, ![640000, 128]⟩ : Shape))
    (idx : IdxCol 640000) : Mat 640000 128 → Mat 100000 128 :=
  fun U => Ideal.hostScatterAdd D (fun _ => z32) idx U

/-- An edge's message before normalisation. -/
def msg {E : Nat} (gs gd : Mat E 128) (ea : Mat E 16) (er : Mat E 128) (We : Mat 16 128) (be : Row 128) (W3 : Mat 128 128) :
    Mat E 128 :=
  at2 fun e j => gs (ix2 e j) + gd (ix2 e j) + (mm ea We (ix2 e j) + be (ix1 j)) + mm er W3 (ix2 e j)

/-- Normalise each column by a mean and a variance, scale, shift, rectify. -/
def bnrelu {n d : Nat} (X : Mat n d) (mu var g b : Row d) : Mat n d :=
  at2 fun a j => max (g (ix1 j) * (X (ix2 a j) - mu (ix1 j)) * Ideal.rsqrt (var (ix1 j) + eps) + b (ix1 j)) z32

/-- Rows 0–7 hold the column sums over the first `steps * tile` rows, rows 8–15 those over the next. -/
def slabSum {n d : Nat} (steps tile : Nat)
    (hrow : ∀ (r : Fin 16) (i : Fin steps) (q : Fin tile), (r.val / 8 * steps + i.val) * tile + q.val < n) (X : Mat n d) :
    Mat 16 d :=
  at2 fun r j => ∑ i : Fin steps, ∑ q : Fin tile, X (ix2 ⟨(r.val / 8 * steps + i.val) * tile + q.val, hrow r i q⟩ j)

/-- Mean and variance from the slabs of the entries and of their squares: mean of squares minus squared mean. -/
def meanK {d : Nat} (nhat : EReal) (S : Mat 16 d) : Row d :=
  at1 fun j => Ideal.div (Ideal.div (z32 + ∑ r : Fin 16, S (ix2 r j)) eight) nhat
def varK {d : Nat} (nhat : EReal) (S Q : Mat 16 d) : Row d :=
  at1 fun j => meanK nhat Q (ix1 j) - meanK nhat S (ix1 j) * meanK nhat S (ix1 j)

/-- Mean and variance the plain way: the mean of the squared deviations. -/
def meanR {n d : Nat} (nhat : EReal) (X : Mat n d) : Row d :=
  at1 fun j => Ideal.div (z32 + ∑ a : Fin n, X (ix2 a j)) nhat
def varR {n d : Nat} (nhat : EReal) (X : Mat n d) : Row d :=
  at1 fun j => Ideal.div (z32 + ∑ a : Fin n, (X (ix2 a j) - meanR nhat X (ix1 j)) * (X (ix2 a j) - meanR nhat X (ix1 j))) nhat

theorem hrowE : ∀ (r : Fin 16) (i : Fin 80) (q : Fin 4000), (r.val / 8 * 80 + i.val) * 4000 + q.val < 640000 := by
  intro r i q; have := r.isLt; have := i.isLt; have := q.isLt; omega
theorem hrowN : ∀ (r : Fin 16) (i : Fin 25) (q : Fin 2000), (r.val / 8 * 25 + i.val) * 2000 + q.val < 100000 := by
  intro r i q; have := r.isLt; have := i.isLt; have := q.isLt; omega

def statKE {d : Nat} (X : Mat 640000 d) : Row d × Row d :=
  (meanK nE (slabSum 80 4000 hrowE X), varK nE (slabSum 80 4000 hrowE X) (slabSum 80 4000 hrowE (sq X)))
def statKN {d : Nat} (X : Mat 100000 d) : Row d × Row d :=
  (meanK nN (slabSum 25 2000 hrowN X), varK nN (slabSum 25 2000 hrowN X) (slabSum 25 2000 hrowN (sq X)))
def statRE {d : Nat} (X : Mat 640000 d) : Row d × Row d := (meanR nE X, varR nE X)
def statRN {d : Nat} (X : Mat 100000 d) : Row d × Row d := (meanR nN X, varR nN X)

def head (y : Mat 100000 128) (Wm1 : Mat 128 256) (s1 : Row 256 × Row 256) (g1 b1 : Row 256) (Wm2 : Mat 256 256)
    (s2 : Row 256 × Row 256) (g2 b2 : Row 256) (Wm3 : Mat 256 128) (bm3 : Row 128) : Mat 100000 128 :=
  addRow (mm (bnrelu (mm (bnrelu (mm y Wm1) s1.1 s1.2 g1 b1) Wm2) s2.1 s2.2 g2 b2) Wm3) bm3

def pre2 (y : Mat 100000 128) (Wm1 : Mat 128 256) (s1 : Row 256 × Row 256) (g1 b1 : Row 256) (Wm2 : Mat 256 256) :
    Mat 100000 256 :=
  mm (bnrelu (mm y Wm1) s1.1 s1.2 g1 b1) Wm2

/-- The whole layer over a choice of the three batch statistics and of the scatter. -/
def pipe (stE : Mat 640000 128 → Row 128 × Row 128) (st1 st2 : Mat 100000 256 → Row 256 × Row 256)
    (sc : Mat 640000 128 → Mat 100000 128) (iS iD : IdxCol 640000)
    (node : Mat 100000 128) (er : Mat 640000 128) (ea : Mat 640000 16) (W1 W2 W3 : Mat 128 128) (We : Mat 16 128)
    (be bng bnb : Row 128) (Wm1 : Mat 128 256) (g1 b1 : Row 256) (Wm2 : Mat 256 256) (g2 b2 : Row 256)
    (Wm3 : Mat 256 128) (bm3 : Row 128) : Mat 100000 128 :=
  let M := msg (gatherRows (by decide) (mm node W1) iS) (gatherRows (by decide) (mm node W2) iD) ea er We be W3
  let y := sc (bnrelu M (stE M).1 (stE M).2 bng bnb)
  let s1 := st1 (mm y Wm1)
  let s2 := st2 (pre2 y Wm1 s1 g1 b1 Wm2)
  head y Wm1 s1 g1 b1 Wm2 s2 g2 b2 Wm3 bm3

end Cert.Spec

end
-- ==== Proof.LibTile.lean ====
import proofs.«419543_j12017318494892_2_alg».proof.Proof.Spec
import Idealize.ShloMosaic.Lib.ValueIdx
import Idealize.ShloMosaic.PureOps.Ideal.Laws
import Idealize.ShloMosaic.Lib.Pipeline.Value

noncomputable section

open scoped BigOperators

namespace Cert.Tile

open Idealize.ShloMosaic Idealize.ShloMosaic.ValueIdx Cert.Spec

theorem hz1 : (![0] : Fin 1 → Nat) = fun _ => 0 := funext fun a => by fin_cases a; rfl
theorem hz2 : (![0, 0] : Fin 2 → Nat) = fun _ => 0 := funext fun a => by fin_cases a <;> rfl

/-- A plain matrix product into the zero block is, at an entry, the sum over the contracted coordinate. -/
theorem matmul_zero_at {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same as an equation of matrices. -/
theorem matmul_zero {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims _ _ _) prec A B (constant (F := Ideal) ⟨2, ![m, n]⟩ .f32 0x00000000#32)
      = mm (A : Mat m k) (B : Mat k n) :=
  funext fun j => by rw [eq_ix2 j]; exact matmul_zero_at w prec A B _ _

/-- A block whose index is zero on every axis and as large as its array is the array. -/
theorem ld_index_zero {Val : EltTy → Type} {S : Shape} {e : EltTy} {idx : Fin S.rank → ℕ} (h : idx = 0)
    (inb : ∀ a, idx a * S.size a + S.size a ≤ S.size a) (X : S.Idx → Val e) :
    View.ld X (Rect.unit (fun a => idx a * S.size a) S.size inb) = X :=
  View.ld_unit_zero (by subst h; exact funext fun a => Nat.zero_mul _) inb X

/-- The lane sum over the rows of an `[n, d]` block, read at a column. -/
theorem colsum_at {n d : Nat} (X : FVec Ideal ⟨2, ![n, d]⟩ .f32) (red : (⟨2, ![n, d]⟩ : Shape).Reduces [0] ⟨1, ![d]⟩) (q : Fin d) :
    multiReduction .add [0] ⟨1, ![d]⟩ X 0x00000000#32 red (.inl rfl) rfl (ix1 q) = ∑ r : Fin n, X (ix2 r q) :=
  (Ideal.multiReduction_add_single X 0x00000000#32 red (.inl rfl) rfl (ix1 q)).trans
    (Finset.sum_congr rfl fun r _ => congrArg X (funext fun a => match a with | ⟨0, _⟩ => rfl | ⟨1, _⟩ => rfl))

theorem rsqrt_apply {s : Shape} {φ : FTy} (v : FVec Ideal s φ) (i : s.Idx) : rsqrt v i = Ideal.rsqrt (v i) := rfl

/-- A quantity that restarts at every `J`-th point and elsewhere adds the point's term is the sum of its run's terms so far. -/
theorem fold_runs {N : ℕ} (J : ℕ) (f : (n : ℕ) → n < N → EReal) (T : ℕ → EReal)
    (hA : ∀ (n : ℕ) (h : n < N), n % J = 0 → f n h = T n)
    (hB : ∀ (n : ℕ) (h : n + 1 < N), ¬(n + 1) % J = 0 → f (n + 1) h = f n (Nat.lt_of_succ_lt h) + T (n + 1)) :
    ∀ (n : ℕ) (h : n < N), f n h = ∑ s ∈ Finset.range (n % J + 1), T (n / J * J + s)
  | 0, h => by rw [hA 0 h (Nat.zero_mod J)]; simp
  | n + 1, h => by
    have d1 := Nat.div_add_mod (n + 1) J
    have d0 := Nat.div_add_mod n J
    by_cases h0 : (n + 1) % J = 0
    · rw [hA _ h h0, h0, Finset.sum_range_one]
      exact congrArg T (by rw [h0, Nat.mul_comm] at d1; omega)
    · have hq : (n + 1) / J = n / J := Nat.succ_div_of_not_dvd fun hd => h0 (Nat.mod_eq_zero_of_dvd hd)
      have e1 : (n + 1) % J = n % J + 1 := by rw [hq] at d1; omega
      rw [hB n h h0, fold_runs J f T hA hB n (Nat.lt_of_succ_lt h), e1, hq, Finset.sum_range_succ _ (n % J + 1)]
      exact congrArg (_ + T ·) (by rw [Nat.mul_comm] at d0; omega)

/-- Column `j`'s sum over the `tile` rows of tile `k` (a row past the end counts as zero). -/
def tileSum {n d : Nat} (tile : ℕ) (X : Mat n d) (k : ℕ) (j : Fin d) : EReal :=
  ∑ q : Fin tile, if h : k * tile + q.val < n then X (ix2 ⟨k * tile + q.val, h⟩ j) else 0

/-- A core's `steps` tile sums are its rows of the slab. -/
theorem slab_row {n d : Nat} (steps tile : ℕ)
    (hrow : ∀ (r : Fin 16) (i : Fin steps) (q : Fin tile), (r.val / 8 * steps + i.val) * tile + q.val < n)
    (X : Mat n d) (r : Fin 16) (j : Fin d) :
    ∑ s ∈ Finset.range steps, tileSum tile X (r.val / 8 * steps + s) j = slabSum steps tile hrow X (ix2 r j) := by
  rw [Finset.sum_range]
  exact Finset.sum_congr rfl fun i _ => Finset.sum_congr rfl fun q _ => dif_pos (hrow r i q)

end Cert.Tile

end
-- ==== Proof.Region0.lean ====
import proofs.«419543_j12017318494892_2_alg».proof.Proof.Gen.KernelIdeal.Frame
import proofs.«419543_j12017318494892_2_alg».proof.Proof.LibTile
import Idealize.ShloMosaic.Lib.Pipeline.Value

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Spec Cert.Tile

variable (V : (c : Dev nD) → (b : Ref sig .tc) → Buf (Elt Ideal) ((c : Thread nD τ).loc b))

theorem idx_facts : ∀ t : Fin cfg0.N,
    win0_0.index t (0 : Fin 2) = t.val ∧ win0_0.index t (1 : Fin 2) = 0
    ∧ win0_1.index t = 0 ∧ win0_2.index t = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

-- Block t is row block t of the node array and of either product.
theorem embs (t : Fin cfg0.N) :
    (∀ (p : Fin 5000) (l : Fin 128) (h : t.val * 5000 + p.val < 100000),
      ((cfg0.win 0).blk t).view.emb (ix2 p l) = ix2 (⟨t.val * 5000 + p.val, h⟩ : Fin 100000) l)
    ∧ (∀ (p : Fin 5000) (q : Fin 128) (h : t.val * 5000 + p.val < 100000),
      ((cfg0.win 3).blk t).view.emb (ix2 p q) = ix2 (⟨t.val * 5000 + p.val, h⟩ : Fin 100000) q)
    ∧ (∀ (p : Fin 5000) (q : Fin 128) (h : t.val * 5000 + p.val < 100000),
      ((cfg0.win 4).blk t).view.emb (ix2 p q) = ix2 (⟨t.val * 5000 + p.val, h⟩ : Fin 100000) q) := by
  obtain ⟨a0, a1, -, -, d0, d1, f0, f1⟩ := idx_facts t
  refine ⟨fun p l h => Shape.idx_ext₂ ?_ ?_, fun p q h => Shape.idx_ext₂ ?_ ?_, fun p q h => Shape.idx_ext₂ ?_ ?_⟩
  · show win0_0.index t (0 : Fin 2) * 5000 + 1 * p.val = t.val * 5000 + p.val; rw [a0]; omega
  · show win0_0.index t (1 : Fin 2) * 128 + 1 * l.val = l.val; rw [a1]; omega
  · show win0_3.index t (0 : Fin 2) * 5000 + 1 * p.val = t.val * 5000 + p.val; rw [d0]; omega
  · show win0_3.index t (1 : Fin 2) * 128 + 1 * q.val = q.val; rw [d1]; omega
  · show win0_4.index t (0 : Fin 2) * 5000 + 1 * p.val = t.val * 5000 + p.val; rw [f0]; omega
  · show win0_4.index t (1 : Fin 2) * 128 + 1 * q.val = q.val; rw [f1]; omega

-- Narrowing changes no extended real, so entry (p, q) of point t's product is entry (5000 t + p, q) of the whole product.
theorem blk_mm (c : Dev nD) (t : Fin cfg0.N) (W : Mat 128 128) (p : Fin 5000) (q : Fin 128)
    (h : t.val * 5000 + p.val < 100000) (y : S5000x128.Idx) (hp : (y 0).val = p.val) (hq : (y 1).val = q.val) :
    k0_pay2 (iblk0 V c 0 t) W y = mm (V c main_arg0 : Mat 100000 128) W (ix2 ⟨_, h⟩ q) := by
  obtain rfl : y = ix2 p q := Shape.idx_ext₂ hp hq
  unfold k0_pay2 k0_pay1 mm
  rw [at2_apply]
  refine (matmul_zero_at (m := 5000) (k := 128) (n := 128) Facts₀.dot_S5000x128_S128x128_S5000x128_1_0_0_1_n_n_wf none _ _ p q).trans ?_
  exact Finset.sum_congr rfl fun l _ => by
    rw [truncf_apply, truncf_apply, show iblk0 V c 0 t (ix2 p l) = (V c main_arg0 : Mat 100000 128) (ix2 ⟨_, h⟩ l)
      from congrArg (V c main_arg0) ((embs t).1 p l h)]

-- Point t's two results are row block t of the two whole products.
theorem flushed (c : Dev nD) (t : Fin cfg0.N) :
    (dat0 V c).flushed 3 t
      = ((cfg0.win 3).blk t).view.read (Elt Ideal) (mm (V c main_arg0 : Mat 100000 128) (V c main_arg4 : Mat 128 128))
    ∧ (dat0 V c).flushed 4 t
      = ((cfg0.win 4).blk t).view.read (Elt Ideal) (mm (V c main_arg0 : Mat 100000 128) (V c main_arg5 : Mat 128 128)) := by
  have hN : t.val < 20 := lt_of_lt_of_eq t.isLt (show cfg0.N = 20 from N_0)
  obtain ⟨-, e3, e4⟩ := embs t
  obtain ⟨-, -, b1, b2, -⟩ := idx_facts t
  have hp : ∀ p : Fin 5000, t.val * 5000 + p.val < 100000 := fun p => by have := p.isLt; omega
  constructor <;> funext y <;> obtain ⟨p, q, rfl⟩ : ∃ (p : Fin 5000) (q : Fin 128), y = ix2 p q := ⟨y 0, y 1, eq_ix2 y⟩
  · show (cfg0.win 3).cut (grid0.coords t) ((dat0 V c).after 3 t) (ix2 p q)
      = mm (V c main_arg0 : Mat 100000 128) (V c main_arg4 : Mat 128 128) (((cfg0.win 3).blk t).view.emb (ix2 p q))
    rw [after0_3, e3 p q (hp p)]
    unfold out0_3
    rw [View.canon_unit_zero hz2, View.ld_unit_zero hz2, View.ld_unit_zero hz2]
    rw [show iblk0 V c 1 t = (V c main_arg4 : Mat 128 128) from ld_index_zero b1 _ _]
    exact blk_mm V c t _ p q (hp p) _ rfl rfl
  · show (cfg0.win 4).cut (grid0.coords t) ((dat0 V c).after 4 t) (ix2 p q)
      = mm (V c main_arg0 : Mat 100000 128) (V c main_arg5 : Mat 128 128) (((cfg0.win 4).blk t).view.emb (ix2 p q))
    rw [after0_4, e4 p q (hp p)]
    unfold out0_4
    rw [View.canon_unit_zero hz2, View.ld_unit_zero hz2, View.ld_unit_zero hz2]
    rw [show iblk0 V c 2 t = (V c main_arg5 : Mat 128 128) from ld_index_zero b2 _ _]
    exact blk_mm V c t _ p q (hp p) _ rfl rfl

-- Row r of either product is covered by the block of point r / 5000.
theorem cover (i : S100000x128.Idx) : ∃ t : Fin cfg0.N,
    i ∈ ((cfg0.win 3).blk t).view.set ∧ i ∈ ((cfg0.win 4).blk t).view.set := by
  obtain ⟨a, b, rfl⟩ : ∃ (a : Fin 100000) (b : Fin 128), i = ix2 a b := ⟨i 0, i 1, eq_ix2 i⟩
  obtain ⟨t, ht⟩ : ∃ t : Fin cfg0.N, t.val = a.val / 5000 := ⟨⟨_, by rw [show cfg0.N = 20 from N_0]; omega⟩, rfl⟩
  obtain ⟨p, hp⟩ : ∃ p : Fin 5000, p.val = a.val % 5000 := ⟨⟨_, Nat.mod_lt _ (by omega)⟩, rfl⟩
  obtain ⟨-, e3, e4⟩ := embs t
  have hR : t.val * 5000 + p.val < 100000 := by omega
  have e : ix2 (⟨_, hR⟩ : Fin 100000) b = ix2 a b := congrArg (ix2 · b) (Fin.ext (by show t.val * 5000 + p.val = a.val; omega))
  exact ⟨t, ((e3 p b hR).trans e) ▸ View.emb_mem_set ((cfg0.win 3).blk t).view (ix2 p b),
    ((e4 p b hR).trans e) ▸ View.emb_mem_set ((cfg0.win 4).blk t).view (ix2 p b)⟩

theorem n1_eq (c : Dev nD) :
    ((dat0 V c).arrAt 3 cfg0.N : Mat 100000 128) = mm (V c main_arg0 : Mat 100000 128) (V c main_arg4 : Mat 128 128) :=
  (dat0 V c).arrAt_eq_of_cover 3 _ (fun t _ => (flushed V c t).1) fun i =>
    let ⟨t, m, _⟩ := cover i; ⟨t, flush0_3 t, m⟩

theorem n2_eq (c : Dev nD) :
    ((dat0 V c).arrAt 4 cfg0.N : Mat 100000 128) = mm (V c main_arg0 : Mat 100000 128) (V c main_arg5 : Mat 128 128) :=
  (dat0 V c).arrAt_eq_of_cover 4 _ (fun t _ => (flushed V c t).2) fun i =>
    let ⟨t, _, m⟩ := cover i; ⟨t, flush0_4 t, m⟩

end Cert.KernelIdeal.Region0

end
-- ==== Proof.LibGatherRows.lean ====
import Idealize.ShloMosaic.Lib.ValueIdx

noncomputable section

namespace Idealize.ShloMosaic.ValueIdx

open Idealize.ShloMosaic

section RowGather
variable {α : Type} {N d E : Nat}

/-- The dimension numbers of `table[idx]` along axis 0: whole rows of an `[N, d]` table at an `[E, 1]` column of starts. -/
abbrev rowGatherDims (N d E : Nat)
    (wf : GatherDims.WF ⟨2, ![N, d]⟩ ⟨2, ![E, 1]⟩ ⟨2, ![E, d]⟩ [1] [0] [] [0] [] 1 ![1, d]) :
    GatherDims ⟨2, ![N, d]⟩ ⟨2, ![E, 1]⟩ ⟨2, ![E, d]⟩ where
  offsetDims := [1]
  collapsedSliceDims := [0]
  operandBatchingDims := []
  startIndicesBatchingDims := []
  startIndexMap := [0]
  indexVectorDim := 1
  sliceSizes := ![1, d]
  wf := wf

theorem rowGatherDims_siIdx (wf : GatherDims.WF ⟨2, ![N, d]⟩ ⟨2, ![E, 1]⟩ ⟨2, ![E, d]⟩ [1] [0] [] [0] [] 1 ![1, d])
    (e : Fin E) (j : Fin d) :
    (rowGatherDims N d E wf).siIdx (ix2 e j)
        ⟨List.idxOf (0 : Fin 2) (rowGatherDims N d E wf).startIndexMap,
          List.idxOf_lt_length_iff.2 (List.mem_singleton.mpr rfl)⟩
      = ix2 e (0 : Fin 1) := by
  funext b; refine Fin.ext ?_
  match b with
  | ⟨0, _⟩ => rfl
  | ⟨1, _⟩ => rfl

/-- The row axis is collapsed and named by the start index; the column axis is the one offset axis and starts at zero. -/
theorem rowGatherDims_apply {w : Nat} (hN : 0 < N)
    (wf : GatherDims.WF ⟨2, ![N, d]⟩ ⟨2, ![E, 1]⟩ ⟨2, ![E, d]⟩ [1] [0] [] [0] [] 1 ![1, d])
    (x : (⟨2, ![N, d]⟩ : Shape).Idx → α) (idx : IVec ⟨2, ![E, 1]⟩ w) (e : Fin E) (j : Fin d) :
    Host.gather (rowGatherDims N d E wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowGatherDims N d E wf).start (ix2 e j) idx 0 + (rowGatherDims N d E wf).batchCoord (ix2 e j) 0
      + (rowGatherDims N d E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N d E wf).startIndexMap from List.mem_singleton.mpr rfl)]
    rw [rowGatherDims_siIdx wf e j]
    rfl
  | ⟨1, _⟩ =>
    have h10 : (1 : Fin 2) ≠ 0 := by decide
    show (rowGatherDims N d E wf).start (ix2 e j) idx 1 + (rowGatherDims N d E wf).batchCoord (ix2 e j) 1
      + (rowGatherDims N d E wf).offCoord (ix2 e j) 1 = _
    rw [GatherDims.batchCoord_eq_zero _ _ _ List.not_mem_nil]
    unfold GatherDims.start
    rw [dif_neg (show (1 : Fin 2) ∉ (rowGatherDims N d E wf).startIndexMap from
      fun h => h10 (List.mem_singleton.mp h))]
    simp only [Nat.add_zero, Nat.zero_add]
    unfold GatherDims.offCoord
    rw [dif_pos (show (1 : Fin 2) ∈ (rowGatherDims N d E wf).sKept from
      (GatherDims.mem_sKept _ _).mpr ⟨fun h => h10 (List.mem_singleton.mp h), List.not_mem_nil⟩)]
    rfl

end RowGather

end Idealize.ShloMosaic.ValueIdx

end
-- ==== Proof.LibGatherRowsSpec.lean ====
import proofs.«419543_j12017318494892_2_alg».proof.Proof.Spec
import proofs.«419543_j12017318494892_2_alg».proof.Proof.LibGatherRows

noncomputable section

namespace Cert.Spec

open Idealize.ShloMosaic Idealize.ShloMosaic.ValueIdx

/-- Any gather whose seven dimension numbers are the row gather's is `gatherRows`: the record is then the literal one. -/
theorem gather_rows_spec {N d E : Nat} (hN : 0 < N) (D : GatherDims ⟨2, ![N, d]⟩ ⟨2, ![E, 1]⟩ ⟨2, ![E, d]⟩)
    (hod : D.offsetDims = [1]) (hcd : D.collapsedSliceDims = [0]) (hob : D.operandBatchingDims = [])
    (hsb : D.startIndicesBatchingDims = []) (hsm : D.startIndexMap = [0]) (hiv : D.indexVectorDim = 1)
    (hss : D.sliceSizes = ![1, d]) (T : Mat N d) (idx : IdxCol E) :
    (fun x i => Host.gather D x i) T idx = gatherRows hN T idx := by
  obtain ⟨od, cd, ob, sb, sm, iv, ss, wf⟩ := D
  dsimp only at hod hcd hob hsb hsm hiv hss
  subst hod hcd hob hsb hsm hiv hss
  funext i
  obtain ⟨e, j, rfl⟩ : ∃ (e : Fin E) (j : Fin d), i = ix2 e j := ⟨i 0, i 1, eq_ix2 i⟩
  exact rowGatherDims_apply hN wf T idx e j

end Cert.Spec

end
-- ==== Proof.KernelKeep.lean ====
import proofs.«419543_j12017318494892_2_alg».proof.Proof.Gen.KernelIdeal.Frame
import proofs.«419543_j12017318494892_2_alg».proof.Proof.Spec
import Idealize.ShloMosaic.Lib.ValueIdx
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

namespace Cert.KernelIdeal.Keep

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Spec

-- The argument arrays read after the first launch.
def args : List (Ref sig .tc) :=
  [main_arg1, main_arg2, main_arg6, main_arg7, main_arg8, main_arg9, main_arg10, main_arg11, main_arg12, main_arg13, main_arg14,
    main_arg15, main_arg16, main_arg17, main_arg18]

-- No operation of `ops` writes a buffer of `K`.
abbrev Keeps (ops : List (HloOp τ sig (Elt Ideal))) (K : List (Ref sig .tc)) : Prop :=
  ops.Forall fun op => ∀ b ∈ K, Proc.devRef (τ := τ) .tc b ∉ op.writes

theorem Keeps.after {ops : List (HloOp τ sig (Elt Ideal))} {K : List (Ref sig .tc)} (h : Keeps ops K)
    (V : Valuation τ sig (Elt Ideal)) {b : Ref sig .tc} (hb : b ∈ K) :
    StableHlo.after ops V (Proc.devRef .tc b) = V (Proc.devRef .tc b) :=
  StableHlo.after_of_forall_not_mem ops V fun op hop => List.forall_iff_forall_mem.mp h op hop b hb

-- An operation whose one result is `y` writes no buffer of a list that `y` is not in.
theorem not_mem_single {K : List (Ref sig .tc)} {y : Ref sig .tc} (h : ∀ b ∈ K, b ≠ y) :
    ∀ b ∈ K, Proc.devRef (τ := τ) .tc b ∉ ({Proc.devRef .tc y} : Finset (DevRef τ sig)) :=
  fun b hb hm => h b hb (Proc.devRef_injective _ (Finset.mem_singleton.mp hm))

def K0 : List (Ref sig .tc) := main_arg0 :: main_arg4 :: main_arg5 :: args
def K1 : List (Ref sig .tc) := main_v3 :: main_v4_1 :: args
def K11 : List (Ref sig .tc) := main_v3 :: main_v5 :: args
def K2 : List (Ref sig .tc) := main_v3 :: args
def K3 : List (Ref sig .tc) := main_v38 :: args
def K4 : List (Ref sig .tc) := main_v38 :: main_v47 :: main_v51 :: args

theorem keep0 : Keeps hostOps0 K0 := by
  repeat' apply And.intro
  all_goals exact not_mem_single (by decide)
theorem keep1 : Keeps hostOps1 K1 := by
  repeat' apply And.intro
  all_goals exact not_mem_single (by decide)
theorem keep11 : Keeps hostOps1_1 K11 := by
  repeat' apply And.intro
  all_goals exact not_mem_single (by decide)
theorem keep2 : Keeps hostOps2 K2 ∧ Keeps hostOps2_1 K2 ∧ Keeps hostOps2_2 K2 := by
  repeat' apply And.intro
  all_goals exact not_mem_single (by decide)
theorem keep3 : Keeps hostOps3 K3 := by
  repeat' apply And.intro
  all_goals exact not_mem_single (by decide)
theorem keep4 : Keeps hostOps4 K4 := by
  repeat' apply And.intro
  all_goals exact not_mem_single (by decide)

-- The host's mean from a 16-row slab: its column sums from zero, over eight, over the row count whose word is `n`.
def hMean {d : Nat} (hr : (⟨2, ![16, d]⟩ : Shape).ReducesTo [0] ⟨1, ![d]⟩) (hb : S_.BroadcastsInDim ⟨1, ![d]⟩ ![]) (n : BitVec 32)
    (S : Mat 16 d) : Row d :=
  Host.divf (F := Ideal)
    (Host.divf (F := Ideal) (Host.reduceAdd (F := Ideal) S (constant (F := Ideal) S_ .f32 0x00000000#32) hr h_S_)
      (broadcastInDim _ ![] hb (constant (F := Ideal) S_ .f32 0x41000000#32)))
    (broadcastInDim _ ![] hb (constant (F := Ideal) S_ .f32 n))

-- The host's variance from the slabs of the entries and of their squares.
def hVar {d : Nat} (hr : (⟨2, ![16, d]⟩ : Shape).ReducesTo [0] ⟨1, ![d]⟩) (hb : S_.BroadcastsInDim ⟨1, ![d]⟩ ![]) (n : BitVec 32)
    (S Q : Mat 16 d) : Row d :=
  subf (F := Ideal) (hMean hr hb n Q) (mulf (F := Ideal) (hMean hr hb n S) (hMean hr hb n S))

theorem hMean_eq {d : Nat} (hr : (⟨2, ![16, d]⟩ : Shape).ReducesTo [0] ⟨1, ![d]⟩) (hR : (⟨2, ![16, d]⟩ : Shape).Reduces [0] ⟨1, ![d]⟩)
    (hb : S_.BroadcastsInDim ⟨1, ![d]⟩ ![]) (n : BitVec 32) (S : Mat 16 d) : hMean hr hb n S = meanK (Ideal.ofBits .f32 n) S := by
  funext i
  obtain ⟨j, rfl⟩ : ∃ j : Fin d, i = ix1 j := ⟨i 0, eq_ix1 i⟩
  unfold hMean meanK
  rw [at1_apply, hostDivf_apply, hostDivf_apply, broadcastInDim_scalar_apply, broadcastInDim_scalar_apply, constant_apply, constant_apply,
    hostReduceAdd_apply, Ideal.hostReduceAdd_single hr hR, constant_apply]
  exact congrArg (fun s => Ideal.div (Ideal.div (_ + s) _) _)
    (Finset.sum_congr rfl fun k _ => congrArg S (funext fun a => by fin_cases a <;> rfl))

theorem hVar_eq {d : Nat} (hr : (⟨2, ![16, d]⟩ : Shape).ReducesTo [0] ⟨1, ![d]⟩) (hR : (⟨2, ![16, d]⟩ : Shape).Reduces [0] ⟨1, ![d]⟩)
    (hb : S_.BroadcastsInDim ⟨1, ![d]⟩ ![]) (n : BitVec 32) (S Q : Mat 16 d) :
    hVar hr hb n S Q = varK (Ideal.ofBits .f32 n) S Q := by
  unfold hVar
  rw [hMean_eq hr hR, hMean_eq hr hR]
  funext i
  obtain ⟨j, rfl⟩ : ∃ j : Fin d, i = ix1 j := ⟨i 0, eq_ix1 i⟩
  rfl

variable (m : (ℓ : Loc nD τ sig) → Buf (Elt Ideal) ℓ) (ρ : Dev nD → PrngReg) (c : Dev nD)

-- The third and the fourth launch leave alone every buffer that is not one of their output windows.
theorem W9_keep (b : Ref sig .tc) (h : ∀ w, Pipeline.arrRef spec2 w = b → (cfg2.win w).isOut = false) :
    W9 m ρ c (Proc.devRef .tc b) = W8 m ρ c (Proc.devRef .tc b) := by
  by_cases hw : ∃ w, Pipeline.arrRef spec2 w = b
  · obtain ⟨w, rfl⟩ := hw
    exact (W9_arr m ρ c w).trans (((dat2 (V8 m ρ) c).arrAt_in w (h w rfl) _).trans (A_eq2 (V8 m ρ) c w))
  · exact W9_of_ne m ρ c b fun w e => hw ⟨w, e⟩
theorem W11_keep (b : Ref sig .tc) (h : ∀ w, Pipeline.arrRef spec3 w = b → (cfg3.win w).isOut = false) :
    W11 m ρ c (Proc.devRef .tc b) = W10 m ρ c (Proc.devRef .tc b) := by
  by_cases hw : ∃ w, Pipeline.arrRef spec3 w = b
  · obtain ⟨w, rfl⟩ := hw
    exact (W11_arr m ρ c w).trans (((dat3 (V10 m ρ) c).arrAt_in w (h w rfl) _).trans (A_eq3 (V10 m ρ) c w))
  · exact W11_of_ne m ρ c b fun w e => hw ⟨w, e⟩

-- A buffer no host operation writes and no launch has for a window holds at the second launch's entry what it was launched with.
theorem V4_arg (b : Ref sig .tc) (h : b ∈ K0 ∧ (∀ w, Pipeline.arrRef spec0 w ≠ b) ∧ b ∈ K1 ∧ b ∈ K11) :
    V4 m ρ c b = m ((c : Thread nD τ).loc b) :=
  (keep11.after _ h.2.2.2).trans ((keep1.after _ h.2.2.1).trans ((W2_of_ne m ρ c b h.2.1).trans (keep0.after _ h.1)))

-- From the second launch's entry to the third's.
theorem V8_keep (b : Ref sig .tc) (h : (∀ w, Pipeline.arrRef spec1 w ≠ b) ∧ b ∈ K2) : V8 m ρ c b = V4 m ρ c b :=
  (keep2.2.2.after _ h.2).trans ((keep2.2.1.after _ h.2).trans ((keep2.1.after _ h.2).trans (W5_of_ne m ρ c b h.1)))

-- From the third launch's entry to the last's.
theorem V12_keep (b : Ref sig .tc)
    (h : (∀ w, Pipeline.arrRef spec2 w = b → (cfg2.win w).isOut = false) ∧ b ∈ K3
      ∧ (∀ w, Pipeline.arrRef spec3 w = b → (cfg3.win w).isOut = false) ∧ b ∈ K4) : V12 m ρ c b = V8 m ρ c b :=
  (keep4.after _ h.2.2.2).trans ((W11_keep m ρ c b h.2.2.1).trans ((keep3.after _ h.2.1).trans (W9_keep m ρ c b h.1)))

end Cert.KernelIdeal.Keep

end
-- ==== Proof.KernelGather.lean ====
import proofs.«419543_j12017318494892_2_alg».proof.Proof.Gen.KernelIdeal.Frame
import proofs.«419543_j12017318494892_2_alg».proof.Proof.Region0
import proofs.«419543_j12017318494892_2_alg».proof.Proof.Spec
import proofs.«419543_j12017318494892_2_alg».proof.Proof.LibGatherRowsSpec
import proofs.«419543_j12017318494892_2_alg».proof.Proof.KernelKeep
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Gather

open Cert.KernelIdeal Cert.KernelIdeal.Gen Cert.KernelIdeal.Keep Idealize.ShloMosaic Idealize.ShloMosaic.TcCoe Idealize.ShloMosaic.ValueIdx Idealize.SL.Sem
open Idealize.ShloMosaic.Pipeline (Dat Cfg Window)
open Cert.Spec

variable (m : (ℓ : Loc nD τ sig) → Buf (Elt Ideal) ℓ) (ρ : Dev nD → PrngReg) (c : Dev nD)

-- The column of start indices: an index below zero moved up by the table's 100000 rows.
def takeCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 100000#32))) idx)

-- Which rows keep what they gathered: the start index lies between 0 and 99999, both compared signed.
def maskRow (col : IVec S640000x1 32) : IVec S640000 1 :=
  Host.reduce IntOp.andi
    (andi (cmpi .sge col (broadcastInDim S640000x1 ![] bcast_S_S640000x1 (constantI S_ 32 0#32)))
      (cmpi .sle col (broadcastInDim S640000x1 ![0, 1] bcast_S1x1_S640000x1_0_1
        (broadcastInDim S1x1 ![1] bcast_S1_S1x1_1 (constantI S1 32 99999#32)))))
    (constantI S_ 1 1#1) reducesTo_S640000x1_S640000_d1 h_S_

-- The gather as the program computes it: the rows read at the start indices, a row out of range replaced by a not-a-number fill.
def takeOf (T : FVec Ideal S100000x128 .f32) (idx : IVec S640000 32) : FVec Ideal S640000x128 .f32 :=
  select (broadcastInDim S640000x128 ![0] bcast_S640000_S640000x128_0 (maskRow (takeCol idx)))
    ((fun x i => Host.gather gather_S100000x128_S640000x1_S640000x128_1_0_n_n_0_1_1128 x i) T (takeCol idx))
    (broadcastInDim S640000x128 ![] bcast_S_S640000x128 (constant S_ .f32 0x7FC00000#32))

attribute [local irreducible] Host.reduce Host.gather in
theorem take_run (V : Valuation τ sig (Elt Ideal)) :
    StableHlo.after hostOps1 V (Proc.devRef .tc main_v5) = takeOf (V (Proc.devRef .tc main_v4_0)) (V (Proc.devRef .tc main_v1))
      ∧ StableHlo.after hostOps1_1 V (Proc.devRef .tc main_v6)
        = takeOf (V (Proc.devRef .tc main_v4_1)) (V (Proc.devRef .tc main_v3)) := by
  constructor <;>
  · after_results_simp
    simp only [StableHlo.TRef.ofBuf, StableHlo.TRef.toBuf, cast_cast, cast_eq]
    rfl

theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = 1#1 from by decide]
    exact ih

-- Where every start index lies in the table, the range test passes at every row.
theorem maskRow_one (col : IVec S640000x1 32) (hc : ∀ i, 0 ≤ (col i).toInt ∧ (col i).toInt < 100000)
    (e : Fin 640000) : maskRow col (ix1 e) = 1#1 := by
  unfold maskRow
  rw [Host.reduce_eq_foldl]
  refine foldl_andi_ones _ (fun i => ?_) _
  have hge : IntOp.cmpi .sge (col i) 0#32 = 1#1 :=
    IntOp.cmpi_sge.mpr (by have hz : (0#32 : BitVec 32).toInt = 0 := by decide
                           have := (hc i).1; omega)
  have hle : IntOp.cmpi .sle (col i) 99999#32 = 1#1 :=
    IntOp.cmpi_sle.mpr (by have hz : (99999#32 : BitVec 32).toInt = 99999 := by decide
                           have := (hc i).2; omega)
  show IntOp.andi (IntOp.cmpi .sge (col i) 0#32) (IntOp.cmpi .sle (col i) 99999#32) = 1#1
  rw [hge, hle]; decide

-- The start-index column is the specification's wrapped column of the row of the edge-index pair the indices were sliced from.
theorem takeCol_eq (idx : IVec S640000 32) (ei : IVec (⟨2, ![2, 640000]⟩ : Shape) 32) (row : Fin 2)
    (h : ∀ e : Fin 640000, idx (ix1 e) = ei (ix2 row e)) : takeCol idx = wrapIdx ei row := by
  funext i
  obtain ⟨e, z, rfl⟩ : ∃ (e : Fin 640000) (z : Fin 1), i = ix2 e z := ⟨i 0, i 1, eq_ix2 i⟩
  unfold takeCol
  refine (broadcastInDim_apply _ _ _ (ix2 e z) (ix1 e) fun a => ?_).trans ?_
  · match a with
    | ⟨0, _⟩ => rfl
  · show Scalar.select (IntOp.cmpi .slt (idx (ix1 e)) 0#32) (IntOp.addi (idx (ix1 e)) 100000#32) (idx (ix1 e)) = _
    rw [h e]
    rfl

-- An index that names a node is not below zero, so wrapping leaves it where it is.
theorem wrapIdx_range (ei : IVec (⟨2, ![2, 640000]⟩ : Shape) 32) (hr : InRange ei) (row : Fin 2) (i : (⟨2, ![640000, 1]⟩ : Shape).Idx) :
    0 ≤ (wrapIdx ei row i).toInt ∧ (wrapIdx ei row i).toInt < 100000 := by
  have hlt : IntOp.cmpi .slt (ei (ix2 row ⟨(i 0).val, idx2_lt0 i⟩)) 0#32 = 0#1 :=
    eq_zero_of_ne_one fun h1 => by
      have := IntOp.cmpi_slt.mp h1
      have := (hr (ix2 row ⟨(i 0).val, idx2_lt0 i⟩)).1
      have hz : (0#32 : BitVec 32).toInt = 0 := by decide
      omega
  unfold wrapIdx
  rw [hlt, select_zero]
  exact hr _

-- Where every index names a node no row is replaced by the fill, and the gather is the row gather at the wrapped indices.
theorem takeOf_eq (T : Mat 100000 128) (idx : IVec S640000 32) (ei : IVec (⟨2, ![2, 640000]⟩ : Shape) 32) (row : Fin 2)
    (h : ∀ e : Fin 640000, idx (ix1 e) = ei (ix2 row e)) (hr : InRange ei) :
    takeOf T idx = gatherRows (by decide) T (wrapIdx ei row) := by
  unfold takeOf
  rw [takeCol_eq idx ei row h, Cert.Spec.gather_rows_spec (by decide) _ rfl rfl rfl rfl rfl rfl rfl T]
  funext i
  obtain ⟨e, j, rfl⟩ : ∃ (e : Fin 640000) (j : Fin 128), i = ix2 e j := ⟨i 0, i 1, eq_ix2 i⟩
  have hm : broadcastInDim S640000x128 ![0] bcast_S640000_S640000x128_0 (maskRow (wrapIdx ei row)) (ix2 e j) = 1#1 :=
    (broadcastInDim_apply _ _ _ (ix2 e j) (ix1 e) fun a => by
      match a with
      | ⟨0, _⟩ => rfl).trans (maskRow_one _ (wrapIdx_range ei hr row) e)
  rw [select_apply, hm, select_one]

-- A row of the pair, sliced out as a one-row matrix and flattened: entry `e` has the same row-major position in both.
theorem slice_row (X : IVec (⟨2, ![2, 640000]⟩ : Shape) 32) (r : Fin 2) (hs : S2x640000.Slices ![r.val, 0] S1x640000)
    (e : Fin 640000) :
    shapeCast S640000 (extractStridedSlice S1x640000 ![r.val, 0] X hs) shapeCasts_S1x640000_S640000 (ix1 e) = X (ix2 r e) := by
  refine (shapeCast_apply _ _ (ix1 e) (ix2 (0 : Fin 1) e) ?_).trans
    (extractStridedSlice_apply _ _ _ (ix2 (0 : Fin 1) e) (ix2 r e) fun a => ?_)
  · rw [Shape.rowMajor_val_two, Shape.rowMajor_val_one]
    show 0 * 640000 + e.val = e.val
    omega
  · match a with
    | ⟨0, _⟩ => exact (Nat.add_zero _).symm
    | ⟨1, _⟩ => exact (Nat.zero_add _).symm

-- The two rows of the edge-index pair at the first launch's entry.
theorem row_eq (e : Fin 640000) :
    (W1 m ρ c (Proc.devRef .tc main_v1) : IVec S640000 32) (ix1 e)
        = (m ((c : Thread nD τ).loc main_arg3) : IVec (⟨2, ![2, 640000]⟩ : Shape) 32) (ix2 (0 : Fin 2) e)
      ∧ (W1 m ρ c (Proc.devRef .tc main_v3) : IVec S640000 32) (ix1 e)
        = (m ((c : Thread nD τ).loc main_arg3) : IVec (⟨2, ![2, 640000]⟩ : Shape) 32) (ix2 (1 : Fin 2) e) := by
  constructor
  · show (StableHlo.after hostOps0 (W0 m ρ c) (Proc.devRef .tc main_v1) : IVec S640000 32) (ix1 e) = _
    after_results
    exact slice_row (W0 m ρ c (Proc.devRef .tc main_arg3)) 0 slices_S2x640000_S1x640000_0_0 e
  · show (StableHlo.after hostOps0 (W0 m ρ c) (Proc.devRef .tc main_v3) : IVec S640000 32) (ix1 e) = _
    after_results
    exact slice_row (W0 m ρ c (Proc.devRef .tc main_arg3)) 1 slices_S2x640000_S1x640000_1_0 e

-- The two node projections as the gathers read them: the node features times a weight matrix, both as launched.
theorem proj_eq :
    (W2 m ρ c (Proc.devRef .tc main_v4_0) : Mat 100000 128)
        = mm (m ((c : Thread nD τ).loc main_arg0) : Mat 100000 128) (m ((c : Thread nD τ).loc main_arg4) : Mat 128 128)
      ∧ (W3 m ρ c (Proc.devRef .tc main_v4_1) : Mat 100000 128)
        = mm (m ((c : Thread nD τ).loc main_arg0) : Mat 100000 128) (m ((c : Thread nD τ).loc main_arg5) : Mat 128 128) := by
  have h0 : V1 m ρ c main_arg0 = m ((c : Thread nD τ).loc main_arg0) := keep0.after _ (b := main_arg0) (by decide)
  refine ⟨(W2_arr m ρ c 3).trans ((Region0.n1_eq (V1 m ρ) c).trans ?_),
    (keep1.after _ (b := main_v4_1) (by decide)).trans ((W2_arr m ρ c 4).trans ((Region0.n2_eq (V1 m ρ) c).trans ?_))⟩
  · rw [h0, show V1 m ρ c main_arg4 = m ((c : Thread nD τ).loc main_arg4) from keep0.after _ (b := main_arg4) (by decide)]
  · rw [h0, show V1 m ρ c main_arg5 = m ((c : Thread nD τ).loc main_arg5) from keep0.after _ (b := main_arg5) (by decide)]

-- The destination row when the second gather reads it, and at the second launch's entry.
theorem dst3 (e : Fin 640000) :
    (W3 m ρ c (Proc.devRef .tc main_v3) : IVec S640000 32) (ix1 e)
      = (m ((c : Thread nD τ).loc main_arg3) : IVec (⟨2, ![2, 640000]⟩ : Shape) 32) (ix2 (1 : Fin 2) e) :=
  (congrFun ((keep1.after _ (b := main_v3) (by decide)).trans (W2_of_ne m ρ c main_v3 (by decide))) _).trans (row_eq m ρ c e).2
theorem dst_eq (e : Fin 640000) :
    (V4 m ρ c main_v3 : IVec (⟨1, ![640000]⟩ : Shape) 32) (ix1 e)
      = (m ((c : Thread nD τ).loc main_arg3) : IVec (⟨2, ![2, 640000]⟩ : Shape) 32) (ix2 (1 : Fin 2) e) :=
  (congrFun (keep11.after _ (b := main_v3) (by decide)) _).trans (dst3 m ρ c e)

-- The two gathered arrays at the second launch's entry.
theorem gs_eq (hr : InRange (m ((c : Thread nD τ).loc main_arg3) : IVec (⟨2, ![2, 640000]⟩ : Shape) 32)) :
    (V4 m ρ c main_v5 : Mat 640000 128)
        = gatherRows (by decide) (mm (m ((c : Thread nD τ).loc main_arg0) : Mat 100000 128) (m ((c : Thread nD τ).loc main_arg4) : Mat 128 128))
            (wrapIdx (m ((c : Thread nD τ).loc main_arg3)) 0)
      ∧ (V4 m ρ c main_v6 : Mat 640000 128)
        = gatherRows (by decide) (mm (m ((c : Thread nD τ).loc main_arg0) : Mat 100000 128) (m ((c : Thread nD τ).loc main_arg5) : Mat 128 128))
            (wrapIdx (m ((c : Thread nD τ).loc main_arg3)) 1) := by
  constructor
  · refine (keep11.after _ (b := main_v5) (by decide)).trans ((take_run (W2 m ρ c)).1.trans ?_)
    rw [(proj_eq m ρ c).1]
    exact takeOf_eq _ _ _ 0 (fun e => (congrFun (W2_of_ne m ρ c main_v1 (by decide)) _).trans (row_eq m ρ c e).1) hr
  · refine (take_run (W3 m ρ c)).2.trans ?_
    rw [(proj_eq m ρ c).2]
    exact takeOf_eq _ _ _ 1 (dst3 m ρ c) hr

end Cert.KernelIdeal.Gather

end
-- ==== Proof.Region1.lean ====
import proofs.«419543_j12017318494892_2_alg».proof.Proof.Gen.KernelIdeal.Frame
import proofs.«419543_j12017318494892_2_alg».proof.Proof.LibTile
import Idealize.ShloMosaic.Lib.Pipeline.Value
import Idealize.ShloMosaic.Lib.ValueLayout

noncomputable section

namespace Cert.KernelIdeal.Region1

open Cert.KernelIdeal.Gen Idealize.ShloMosaic Idealize.ShloMosaic.TcCoe Idealize.ShloMosaic.ValueIdx Cert.Spec Cert.Tile

variable (V : (c : Dev nD) → (b : Ref sig .tc) → Buf (Elt Ideal) ((c : Thread nD τ).loc b))

abbrev msgOf (c : Dev nD) : Mat 640000 128 :=
  msg (V c main_v5 : Mat 640000 128) (V c main_v6 : Mat 640000 128) (V c main_arg2 : Mat 640000 16) (V c main_arg1 : Mat 640000 128)
    (V c main_arg7 : Mat 16 128) (V c main_arg8 : Row 128) (V c main_arg6 : Mat 128 128)

abbrev atTile {α : Type} (f : Vec Ideal S4000x16 .f32 → Vec Ideal S16x128 .f32 → Vec Ideal S4000x128 .f32 → Vec Ideal S128x128 .f32 →
    Vec Ideal S128 .f32 → Vec Ideal S4000x128 .f32 → Vec Ideal S4000x128 .f32 → α) (c : Dev nD) (t : Fin cfg1.N) : α :=
  f (iblk1 V c 2 t) (iblk1 V c 4 t) (iblk1 V c 3 t) (iblk1 V c 6 t) (iblk1 V c 5 t) (iblk1 V c 0 t) (iblk1 V c 1 t)

abbrev prevOuts (c : Dev nD) (t : Fin cfg1.N) := outsAt1 V c (t.val - 1) (Nat.lt_of_le_of_lt (Nat.sub_le _ _) t.isLt)

-- What a tile leaves: its messages, and each accumulator block plus the tile's term, the block being zero at a core's first tile, else the one before's.
theorem outs_at (c : Dev nD) (t : Fin cfg1.N) :
    (t.val % 80 = 0 → outsAt1 V c t.val t.isLt
      = (atTile V k1_pay5 c t, k1_pay1 (k1_pay7 (k1_pay3 (F := Ideal))) (atTile V k1_pay8 c t), k1_pay2 (atTile V k1_pay6 c t) (k1_pay4 (F := Ideal))))
    ∧ (¬t.val % 80 = 0 → outsAt1 V c t.val t.isLt
      = (atTile V k1_pay5 c t, k1_pay1 (k1_pay7 (prevOuts V c t).2.1) (atTile V k1_pay8 c t), k1_pay2 (atTile V k1_pay6 c t) (prevOuts V c t).2.2)) := by
  refine ⟨fun h0 => ?_, fun h0 => ?_⟩
  on_goal 1 => rw [outsAt1_A V c t h0]
  on_goal 2 => rw [outsAt1_B V c t h0]
  all_goals refine congrArg₂ Prod.mk ?_ (congrArg₂ Prod.mk ?_ ?_)
  on_goal 1 => unfold out1_A_7; rw [View.read_writes_eq_canon _ _ _ (fun y => cover1_A_7 (y := y) ..)]; unfold kernelRun1_A
  on_goal 2 => unfold out1_A_8; rw [View.read_writes_eq_canon _ _ _ (fun y => cover1_A_8 (y := y) ..)]; unfold kernelRun1_A
  on_goal 3 => unfold out1_A_9; rw [View.read_writes_eq_canon _ _ _ (fun y => cover1_A_9 (y := y) ..)]; unfold kernelRun1_A
  on_goal 4 => unfold out1_B_7; rw [View.read_writes_eq_canon _ _ _ (fun y => cover1_B_7 (y := y) ..)]; unfold kernelRun1_B
  on_goal 5 => unfold out1_B_8; rw [View.read_writes_eq_canon _ _ _ (fun y => cover1_B_8 (y := y) ..)]; unfold kernelRun1_B
  on_goal 6 => unfold out1_B_9; rw [View.read_writes_eq_canon _ _ _ (fun y => cover1_B_9 (y := y) ..)]; unfold kernelRun1_B
  all_goals
    dsimp only
    sl_unfold_words
    rw [View.canon_cons_unit_zero hz2]
    simp only [View.readCov_unit_zero (S := S8x128) _ hz2, View.readAt_eq_ld, (hs1_0 t).read_unread, (hs1_1 t).read_unread, (hs1_2 t).read_unread, (hs1_3 t).read_unread, (hs1_4 t).read_unread, (hs1_5 t).read_unread, (hs1_6 t).read_unread, (hs1_8 t).read_unread, (hs1_9 t).read_unread, View.ld_unit_zero (S := S8x128) hz2, View.ld_unit_zero (S := S4000x16) hz2, View.ld_unit_zero (S := S16x128) hz2, View.ld_unit_zero (S := S4000x128) hz2, View.ld_unit_zero (S := S128x128) hz2, View.ld_unit_zero (S := S128) hz1]

theorem msgAfter (c : Dev nD) (t : Fin cfg1.N) : (outsAt1 V c t.val t.isLt).1 = atTile V k1_pay5 c t := by
  by_cases h0 : t.val % 80 = 0
  · exact congrArg Prod.fst ((outs_at V c t).1 h0)
  · exact congrArg Prod.fst ((outs_at V c t).2 h0)

-- Entry (p, q) of a tile's messages: each block product is a sum over the contracted coordinate, the bias is spread over the rows.
theorem tilePayload_apply (v3 : FVec Ideal S4000x16 .f32) (v5 : FVec Ideal S16x128 .f32) (v7 : FVec Ideal S4000x128 .f32)
    (v9 : FVec Ideal S128x128 .f32) (v12 : FVec Ideal S128 .f32) (v17 v19 : FVec Ideal S4000x128 .f32) (p : Fin 4000) (q : Fin 128) :
    k1_pay5 (F := Ideal) v3 v5 v7 v9 v12 v17 v19 (ix2 p q)
      = v17 (ix2 p q) + v19 (ix2 p q) + ((∑ l : Fin 16, v3 (ix2 p l) * v5 (ix2 l q)) + v12 (ix1 q))
        + ∑ l : Fin 128, v7 (ix2 p l) * v9 (ix2 l q) := by
  unfold k1_pay5
  refine (addf_apply _ _ _).trans ?_
  refine congrArg₂ (· + ·) ?_ ((matmul_zero_at (m := 4000) (k := 128) (n := 128) Facts₀.dot_S4000x128_S128x128_S4000x128_1_0_0_1_n_n_wf none _ _ p q).trans
    (Finset.sum_congr rfl fun l _ => rfl))
  refine (addf_apply _ _ _).trans ?_
  refine congrArg₂ (· + ·) ?_ ?_
  · refine (addf_apply _ _ _).trans ?_
    exact congrArg₂ (· + ·) (congrFun (shapeCast_self v17 _) _) (congrFun (shapeCast_self v19 _) _)
  · refine (addf_apply _ _ _).trans ?_
    refine congrArg₂ (· + ·) ((matmul_zero_at (m := 4000) (k := 16) (n := 128) Facts₀.dot_S4000x16_S16x128_S4000x128_1_0_0_1_n_n_wf none _ _ p q).trans
      (Finset.sum_congr rfl fun l _ => rfl)) ?_
    refine (broadcastTo_1b_ab_apply _ _ p q).trans ?_
    exact shapeCast_a_1a_apply v12 _ 0 q

theorem tile_index : ∀ t : Fin cfg1.N,
    win1_0.index t (0 : Fin 2) = t.val ∧ win1_0.index t (1 : Fin 2) = 0
    ∧ win1_2.index t (0 : Fin 2) = t.val ∧ win1_2.index t (1 : Fin 2) = 0
    ∧ win1_7.index t (0 : Fin 2) = t.val ∧ win1_7.index t (1 : Fin 2) = 0 :=
  (by decide +kernel : ∀ t : Fin grid1.N, _)

theorem whole_index : ∀ t : Fin cfg1.N, win1_4.index t = 0 ∧ win1_5.index t = 0 ∧ win1_6.index t = 0 :=
  (by decide +kernel : ∀ t : Fin grid1.N, _)

theorem tile_row_lt (t : Fin cfg1.N) (p : Fin 4000) : t.val * 4000 + p.val < 640000 := by
  have h : t.val < 160 := (N_1 ▸ t.isLt : t.val < 160)
  have := p.isLt
  omega

abbrev edgeRow (t : Fin cfg1.N) (p : Fin 4000) : Fin 640000 := ⟨t.val * 4000 + p.val, tile_row_lt t p⟩

-- Block t of a row-tiled [640000, 128] array is its rows 4000 t … 4000 t + 3999; windows 0, 1, 3 and 7 have this same index map.
theorem rowEmb (t : Fin cfg1.N) (p : Fin 4000) (q : Fin 128) :
    ((cfg1.win 0).blk t).view.emb (ix2 p q) = (ix2 (edgeRow t p) q : S640000x128.Idx) := by
  obtain ⟨e0, e1, -⟩ := tile_index t
  funext a; apply Fin.ext
  match a with
  | ⟨0, _⟩ => show win1_0.index t (0 : Fin 2) * 4000 + 1 * p.val = t.val * 4000 + p.val; rw [e0]; omega
  | ⟨1, _⟩ => show win1_0.index t (1 : Fin 2) * 128 + 1 * q.val = q.val; rw [e1]; omega

theorem gsBlock_apply (c : Dev nD) (t : Fin cfg1.N) (p : Fin 4000) (q : Fin 128) :
    (iblk1 V c 0 t : FVec Ideal S4000x128 .f32) (ix2 p q) = (V c main_v5 : Mat 640000 128) (ix2 (edgeRow t p) q) :=
  congrArg (V c main_v5 : Mat 640000 128) (rowEmb t p q)

theorem gdBlock_apply (c : Dev nD) (t : Fin cfg1.N) (p : Fin 4000) (q : Fin 128) :
    (iblk1 V c 1 t : FVec Ideal S4000x128 .f32) (ix2 p q) = (V c main_v6 : Mat 640000 128) (ix2 (edgeRow t p) q) :=
  congrArg (V c main_v6 : Mat 640000 128) (rowEmb t p q)

theorem erBlock_apply (c : Dev nD) (t : Fin cfg1.N) (p : Fin 4000) (l : Fin 128) :
    (iblk1 V c 3 t : FVec Ideal S4000x128 .f32) (ix2 p l) = (V c main_arg1 : Mat 640000 128) (ix2 (edgeRow t p) l) :=
  congrArg (V c main_arg1 : Mat 640000 128) (rowEmb t p l)

theorem eaBlock_apply (c : Dev nD) (t : Fin cfg1.N) (p : Fin 4000) (l : Fin 16) :
    (iblk1 V c 2 t : FVec Ideal S4000x16 .f32) (ix2 p l) = (V c main_arg2 : Mat 640000 16) (ix2 (edgeRow t p) l) := by
  obtain ⟨-, -, e0, e1, -⟩ := tile_index t
  unfold iblk1
  rw [View.read_apply]
  show V c main_arg2 _ = V c main_arg2 _
  refine congrArg _ (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 16 + 1 * l.val = l.val; rw [e1]; omega

-- The three weight windows' index is zero on every axis: their block is the whole array.
theorem weBlock (c : Dev nD) (t : Fin cfg1.N) : (iblk1 V c 4 t : FVec Ideal S16x128 .f32) = (V c main_arg7 : Mat 16 128) :=
  ld_index_zero (whole_index t).1 _ _
theorem beBlock (c : Dev nD) (t : Fin cfg1.N) : (iblk1 V c 5 t : FVec Ideal S128 .f32) = (V c main_arg8 : Row 128) :=
  ld_index_zero (whole_index t).2.1 _ _
theorem w3Block (c : Dev nD) (t : Fin cfg1.N) : (iblk1 V c 6 t : FVec Ideal S128x128 .f32) = (V c main_arg6 : Mat 128 128) :=
  ld_index_zero (whole_index t).2.2 _ _

-- A tile's blocks are its 4000 rows of the edge arrays and the whole weight arrays, so its messages are those rows of the message array.
theorem tile_entry (c : Dev nD) (t : Fin cfg1.N) (p : Fin 4000) (q : Fin 128) :
    atTile V k1_pay5 c t (ix2 p q) = msgOf V c (ix2 (edgeRow t p) q) := by
  refine (tilePayload_apply _ _ _ _ _ _ _ p q).trans ?_
  rw [gsBlock_apply V c t p q, gdBlock_apply V c t p q, weBlock V c t, beBlock V c t, w3Block V c t]
  simp only [eaBlock_apply V c t p, erBlock_apply V c t p]
  rfl

theorem flushed_eq (c : Dev nD) (t : Fin cfg1.N) :
    (dat1 V c).flushed 7 t = ((cfg1.win 7).blk t).view.read (Elt Ideal) (msgOf V c) := by
  show (cfg1.win 7).cut (grid1.coords t) ((dat1 V c).after 7 t) = _
  rw [after1_7, msgAfter V c t]
  refine funext fun (j : S4000x128.Idx) => ?_
  obtain ⟨p, q, rfl⟩ : ∃ (p : Fin 4000) (q : Fin 128), j = ix2 p q := ⟨j 0, j 1, eq_ix2 j⟩
  exact (tile_entry V c t p q).trans (congrArg (msgOf V c) (rowEmb t p q).symm)

-- Row r of the array lies in the block of tile r / 4000.
theorem tiles_cover (i : S640000x128.Idx) :
    ∃ t : Fin cfg1.N, (cfg1.win 7).flush t = true ∧ i ∈ ((cfg1.win 7).blk t).view.set := by
  have h0 : (i 0).val < 640000 := (i 0).isLt
  have h1 : (i 1).val < 128 := (i 1).isLt
  obtain ⟨t, ht⟩ : ∃ t : Fin cfg1.N, t.val = (i 0).val / 4000 := ⟨⟨(i 0).val / 4000, lt_of_lt_of_eq (show (i 0).val / 4000 < 160 by omega) (show cfg1.N = 160 from N_1).symm⟩, rfl⟩
  obtain ⟨-, -, -, -, e0, e1⟩ := tile_index t
  refine ⟨t, flush1_7 t, ?_⟩
  show i ∈ ((View.whole main_v7_0).slice (win1_7.rect t)).set
  rw [View.set_slice_whole, Rect.mem_set_unit]
  intro a
  match a with
  | ⟨0, _⟩ => show win1_7.index t (0 : Fin 2) * 4000 ≤ (i 0).val ∧ (i 0).val < win1_7.index t (0 : Fin 2) * 4000 + 4000; rw [e0]; omega
  | ⟨1, _⟩ => show win1_7.index t (1 : Fin 2) * 128 ≤ (i 1).val ∧ (i 1).val < win1_7.index t (1 : Fin 2) * 128 + 128; rw [e1]; omega

theorem msg_eq (c : Dev nD) : ((dat1 V c).arrAt 7 cfg1.N : Mat 640000 128) = msgOf V c :=
  (dat1 V c).arrAt_eq_of_cover 7 (msgOf V c) (fun t _ => flushed_eq V c t) tiles_cover

end Cert.KernelIdeal.Region1

end
-- ==== Proof.Region1Sums.lean ====
import proofs.«419543_j12017318494892_2_alg».proof.Proof.Region1

noncomputable section

namespace Cert.KernelIdeal.Region1

open Cert.KernelIdeal.Gen Idealize.ShloMosaic Idealize.ShloMosaic.TcCoe Idealize.ShloMosaic.ValueIdx Cert.Spec Cert.Tile

section Entries
variable (x0 x1 : FVec Ideal S4000x128 .f32) (x2 : FVec Ideal S4000x16 .f32) (x3 : FVec Ideal S4000x128 .f32)
  (x4 : FVec Ideal S16x128 .f32) (x5 : FVec Ideal S128 .f32) (x6 : FVec Ideal S128x128 .f32)

-- What a tile adds to every row of the sums' block: the column sums of its messages;
theorem tileSum_at (r : Fin 8) (q : Fin 128) :
    k1_pay8 (F := Ideal) x2 x4 x3 x6 x5 x0 x1 (ix2 r q) = ∑ p : Fin 4000, k1_pay5 (F := Ideal) x2 x4 x3 x6 x5 x0 x1 (ix2 p q) := by
  unfold k1_pay8
  simp only [shapeCast_self]
  refine (broadcastTo_1b_ab_apply (a := 8) (b := 128) _ Facts₀.broadcasts_S1x128_S8x128 r q).trans ?_
  refine (shapeCast_a_1a_apply (a := 128) _ Facts₀.shapeCasts_S128_S1x128 0 q).trans ?_
  exact colsum_at _ _ q

-- and to the squares' block, those of its squared messages.
theorem tileSumSq_at (q : Fin 128) :
    k1_pay6 (F := Ideal) x2 x4 x3 x6 x5 x0 x1 (ix1 q)
      = ∑ p : Fin 4000, k1_pay5 (F := Ideal) x2 x4 x3 x6 x5 x0 x1 (ix2 p q) * k1_pay5 (F := Ideal) x2 x4 x3 x6 x5 x0 x1 (ix2 p q) := by
  unfold k1_pay6
  exact colsum_at _ _ q

end Entries

theorem stepSum_at (old add : FVec Ideal S8x128 .f32) (r : Fin 8) (q : Fin 128) :
    k1_pay1 (F := Ideal) (k1_pay7 old) add (ix2 r q) = old (ix2 r q) + add (ix2 r q) := by
  unfold k1_pay1 k1_pay7
  simp only [shapeCast_self]
  rfl

theorem stepSumSq_at (v : FVec Ideal S128 .f32) (old : FVec Ideal S8x128 .f32) (r : Fin 8) (q : Fin 128) :
    k1_pay2 (F := Ideal) v old (ix2 r q) = old (ix2 r q) + v (ix1 q) := by
  unfold k1_pay2
  simp only [shapeCast_self]
  refine congrArg (old (ix2 r q) + ·) ?_
  refine (broadcastTo_1b_ab_apply (a := 8) (b := 128) _ Facts₀.broadcasts_S1x128_S8x128 r q).trans ?_
  exact shapeCast_a_1a_apply (a := 128) v Facts₀.shapeCasts_S128_S1x128 0 q

theorem zeroSum_at (i : S8x128.Idx) : k1_pay3 (F := Ideal) i = 0 := by
  unfold k1_pay3
  exact Ideal.ofBits_zero_f32
theorem zeroSumSq_at (i : S8x128.Idx) : k1_pay4 (F := Ideal) i = 0 := by
  unfold k1_pay4
  exact Ideal.ofBits_zero_f32

variable (V : (c : Dev nD) → (b : Ref sig .tc) → Buf (Elt Ideal) ((c : Thread nD τ).loc b))

-- A tile's messages are its rows of the message array, so its column sums are that tile's of the array (of its squares).
theorem tileSum_eq (c : Dev nD) (t : Fin cfg1.N) (r : Fin 8) (q : Fin 128) :
    atTile V k1_pay8 c t (ix2 r q) = tileSum 4000 (msgOf V c) t.val q := by
  refine (tileSum_at _ _ _ _ _ _ _ r q).trans ?_
  unfold tileSum
  refine Finset.sum_congr rfl fun p _ => ?_
  rw [dif_pos (tile_row_lt t p)]
  exact tile_entry V c t p q

theorem tileSumSq_eq (c : Dev nD) (t : Fin cfg1.N) (q : Fin 128) :
    atTile V k1_pay6 c t (ix1 q) = tileSum 4000 (sq (msgOf V c)) t.val q := by
  refine (tileSumSq_at _ _ _ _ _ _ _ q).trans ?_
  unfold tileSum
  refine Finset.sum_congr rfl fun p _ => ?_
  rw [dif_pos (tile_row_lt t p)]
  exact congrArg (fun x => x * x) (tile_entry V c t p q)

abbrev sumBlk (c : Dev nD) (n : ℕ) (h : n < cfg1.N) : FVec Ideal S8x128 .f32 := (outsAt1 V c n h).2.1
abbrev sqBlk (c : Dev nD) (n : ℕ) (h : n < cfg1.N) : FVec Ideal S8x128 .f32 := (outsAt1 V c n h).2.2

-- At a core's first tile each block is zero plus the tile's term;
theorem acc_first (c : Dev nD) (t : Fin cfg1.N) (h0 : t.val % 80 = 0) (r : Fin 8) (q : Fin 128) :
    sumBlk V c t.val t.isLt (ix2 r q) = tileSum 4000 (msgOf V c) t.val q
    ∧ sqBlk V c t.val t.isLt (ix2 r q) = tileSum 4000 (sq (msgOf V c)) t.val q := by
  unfold sumBlk sqBlk
  rw [(outs_at V c t).1 h0]
  refine ⟨(stepSum_at _ _ r q).trans ?_, (stepSumSq_at _ _ r q).trans ?_⟩
  · rw [zeroSum_at, zero_add]; exact tileSum_eq V c t r q
  · rw [zeroSumSq_at, zero_add]; exact tileSumSq_eq V c t q

-- at a later tile, what the tile before left plus the tile's term;
theorem acc_next (c : Dev nD) (t : Fin cfg1.N) (h0 : ¬t.val % 80 = 0) (r : Fin 8) (q : Fin 128) :
    sumBlk V c t.val t.isLt (ix2 r q)
      = sumBlk V c (t.val - 1) (Nat.lt_of_le_of_lt (Nat.sub_le _ _) t.isLt) (ix2 r q) + tileSum 4000 (msgOf V c) t.val q
    ∧ sqBlk V c t.val t.isLt (ix2 r q)
      = sqBlk V c (t.val - 1) (Nat.lt_of_le_of_lt (Nat.sub_le _ _) t.isLt) (ix2 r q) + tileSum 4000 (sq (msgOf V c)) t.val q := by
  unfold sumBlk sqBlk
  rw [(outs_at V c t).2 h0]
  exact ⟨(stepSum_at _ _ r q).trans (congrArg (_ + ·) (tileSum_eq V c t r q)),
    (stepSumSq_at _ _ r q).trans (congrArg (_ + ·) (tileSumSq_eq V c t q))⟩

-- so after tile n every row of each block holds the terms of the core's tiles up to n.
theorem acc_eq (c : Dev nD) (n : ℕ) (h : n < cfg1.N) (r : Fin 8) (q : Fin 128) :
    sumBlk V c n h (ix2 r q) = ∑ s ∈ Finset.range (n % 80 + 1), tileSum 4000 (msgOf V c) (n / 80 * 80 + s) q
    ∧ sqBlk V c n h (ix2 r q) = ∑ s ∈ Finset.range (n % 80 + 1), tileSum 4000 (sq (msgOf V c)) (n / 80 * 80 + s) q :=
  ⟨fold_runs 80 (fun n h => sumBlk V c n h (ix2 r q)) (fun n => tileSum 4000 (msgOf V c) n q)
      (fun n h h0 => (acc_first V c ⟨n, h⟩ h0 r q).1) (fun n h h0 => (acc_next V c ⟨n + 1, h⟩ h0 r q).1) n h,
    fold_runs 80 (fun n h => sqBlk V c n h (ix2 r q)) (fun n => tileSum 4000 (sq (msgOf V c)) n q)
      (fun n h h0 => (acc_first V c ⟨n, h⟩ h0 r q).2) (fun n h h0 => (acc_next V c ⟨n + 1, h⟩ h0 r q).2) n h⟩

-- A core's eighty tile terms are the slab's entry in each of the core's eight rows.
theorem slab_at (X : Mat 640000 128) (k : ℕ) (r : Fin 8) (q : Fin 128) (hr : k * 8 + r.val < 16) :
    ∑ s ∈ Finset.range 80, tileSum 4000 X (k * 80 + s) q = slabSum 80 4000 hrowE X (ix2 ⟨k * 8 + r.val, hr⟩ q) := by
  have h := slab_row 80 4000 hrowE X ⟨k * 8 + r.val, hr⟩ q
  rwa [show (⟨k * 8 + r.val, hr⟩ : Fin 16).val / 8 = k from (by have := r.isLt; show (k * 8 + r.val) / 8 = k; omega)] at h

theorem acc_index : ∀ t : Fin cfg1.N, win1_8.index t (0 : Fin 2) = t.val / 80 ∧ win1_8.index t (1 : Fin 2) = 0 :=
  (by decide +kernel : ∀ t : Fin grid1.N, _)

theorem accWin_emb (t : Fin cfg1.N) (r : Fin 8) (q : Fin 128) (hr : t.val / 80 * 8 + r.val < 16) :
    ((cfg1.win 8).blk t).view.emb (ix2 r q) = (ix2 ⟨t.val / 80 * 8 + r.val, hr⟩ q : S16x128.Idx) := by
  obtain ⟨e0, e1⟩ := acc_index t
  funext a; apply Fin.ext
  match a with
  | ⟨0, _⟩ => show win1_8.index t (0 : Fin 2) * 8 + 1 * r.val = t.val / 80 * 8 + r.val; rw [e0]; omega
  | ⟨1, _⟩ => show win1_8.index t (1 : Fin 2) * 128 + 1 * q.val = q.val; rw [e1]; omega

-- A block whose rows all hold a core's tile terms up to its last tile is, at the core's eight rows, the slab's block.
theorem written_of (X : Mat 640000 128) (t : Fin cfg1.N) (h79 : t.val % 80 = 79) (B : FVec Ideal S8x128 .f32)
    (hB : ∀ r q, B (ix2 r q) = ∑ s ∈ Finset.range (t.val % 80 + 1), tileSum 4000 X (t.val / 80 * 80 + s) q) :
    B = ((cfg1.win 8).blk t).view.read (Elt Ideal) (slabSum 80 4000 hrowE X) := by
  have hN : t.val < 160 := lt_of_lt_of_eq t.isLt N_1
  funext j
  obtain ⟨r, q, rfl⟩ : ∃ (r : Fin 8) (q : Fin 128), j = ix2 r q := ⟨j 0, j 1, eq_ix2 j⟩
  have hr8 := r.isLt
  rw [View.read_apply, accWin_emb t r q (by omega), hB, h79]
  exact slab_at X (t.val / 80) r q (by omega)

-- Every row of the 16-row array lies in the block of its core's last tile.
theorem sum_covered (i : S16x128.Idx) :
    ∃ t : Fin cfg1.N, (cfg1.win 8).flush t = true ∧ i ∈ ((cfg1.win 8).blk t).view.set := by
  have h0 : (i 0).val < 16 := (i 0).isLt
  have h1 : (i 1).val < 128 := (i 1).isLt
  obtain ⟨t, ht⟩ : ∃ t : Fin cfg1.N, t.val = (i 0).val / 8 * 80 + 79 := ⟨⟨(i 0).val / 8 * 80 + 79, lt_of_lt_of_eq (show (i 0).val / 8 * 80 + 79 < 160 by omega) (show cfg1.N = 160 from N_1).symm⟩, rfl⟩
  obtain ⟨e0, e1⟩ := acc_index t
  refine ⟨t, (flush1_8 t).mpr (by omega), ?_⟩
  show i ∈ ((View.whole main_v7_1).slice (win1_8.rect t)).set
  rw [View.set_slice_whole, Rect.mem_set_unit]
  intro a
  match a with
  | ⟨0, _⟩ => show win1_8.index t (0 : Fin 2) * 8 ≤ (i 0).val ∧ (i 0).val < win1_8.index t (0 : Fin 2) * 8 + 8; rw [e0]; omega
  | ⟨1, _⟩ => show win1_8.index t (1 : Fin 2) * 128 ≤ (i 1).val ∧ (i 1).val < win1_8.index t (1 : Fin 2) * 128 + 128; rw [e1]; omega

theorem sum_written (c : Dev nD) (t : Fin cfg1.N) (hf : (cfg1.win 8).flush t = true) :
    (dat1 V c).flushed 8 t = ((cfg1.win 8).blk t).view.read (Elt Ideal) (slabSum 80 4000 hrowE (msgOf V c)) :=
  written_of (msgOf V c) t ((flush1_8 t).mp hf) (sumBlk V c t.val t.isLt) fun r q => (acc_eq V c t.val t.isLt r q).1

-- Windows 8 and 9 have the same index map and the same `flush` points, so window 9's blocks are window 8's.
theorem sq_written (c : Dev nD) (t : Fin cfg1.N) (hf : (cfg1.win 9).flush t = true) :
    (dat1 V c).flushed 9 t = ((cfg1.win 9).blk t).view.read (Elt Ideal) (slabSum 80 4000 hrowE (sq (msgOf V c))) :=
  written_of (sq (msgOf V c)) t ((flush1_9 t).mp hf) (sqBlk V c t.val t.isLt) fun r q => (acc_eq V c t.val t.isLt r q).2

theorem sq_covered (i : S16x128.Idx) :
    ∃ t : Fin cfg1.N, (cfg1.win 9).flush t = true ∧ i ∈ ((cfg1.win 9).blk t).view.set :=
  sum_covered i

theorem sum_eq (c : Dev nD) : ((dat1 V c).arrAt 8 cfg1.N : Mat 16 128) = slabSum 80 4000 hrowE (msgOf V c) :=
  (dat1 V c).arrAt_eq_of_cover 8 (slabSum 80 4000 hrowE (msgOf V c)) (sum_written V c) sum_covered

theorem sumsq_eq (c : Dev nD) : ((dat1 V c).arrAt 9 cfg1.N : Mat 16 128) = slabSum 80 4000 hrowE (sq (msgOf V c)) :=
  (dat1 V c).arrAt_eq_of_cover 9 (slabSum 80 4000 hrowE (sq (msgOf V c))) (sq_written V c) sq_covered

end Cert.KernelIdeal.Region1

end
-- ==== Proof.KernelScatter.lean ====
import proofs.«419543_j12017318494892_2_alg».proof.Proof.Gen.KernelIdeal.Frame
import proofs.«419543_j12017318494892_2_alg».proof.Proof.Region1
import proofs.«419543_j12017318494892_2_alg».proof.Proof.Region1Sums
import proofs.«419543_j12017318494892_2_alg».proof.Proof.Spec
import proofs.«419543_j12017318494892_2_alg».proof.Proof.KernelKeep
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.IdealHost
import Idealize.ShloMosaic.Lib.KernelVsHost

set_option maxRecDepth 16384

noncomputable section

namespace Cert.KernelIdeal.Scatter

open Cert.KernelIdeal Cert.KernelIdeal.Gen Cert.KernelIdeal.Keep Idealize.ShloMosaic Idealize.ShloMosaic.TcCoe Idealize.ShloMosaic.ValueIdx Idealize.SL.Sem
open Idealize.ShloMosaic.Pipeline (Dat Cfg Window)
open Cert.Spec

variable (m : (ℓ : Loc nD τ sig) → Buf (Elt Ideal) ℓ) (ρ : Dev nD → PrngReg) (c : Dev nD)

-- The messages, from what the second launch's entry holds.
abbrev M4 : Mat 640000 128 :=
  msg (V4 m ρ c main_v5) (V4 m ρ c main_v6) (V4 m ρ c main_arg2) (V4 m ρ c main_arg1) (V4 m ρ c main_arg7) (V4 m ρ c main_arg8)
    (V4 m ρ c main_arg6)

-- A row vector laid under every row of a matrix.
def under (r : Row 128) : Mat 640000 128 :=
  broadcastInDim S640000x128 ![0, 1] bcast_S1x128_S640000x128_0_1 (broadcastInDim S1x128 ![1] bcast_S128_S1x128_1 r)

theorem under_apply (r : Row 128) (a : Fin 640000) (j : Fin 128) : under r (ix2 a j) = r (ix1 j) :=
  (broadcastInDim_oneRow_apply bcast_S1x128_S640000x128_0_1 _ a j).trans
    (broadcastInDim_apply ![1] bcast_S128_S1x128_1 r (ix2 (0 : Fin 1) j) (ix1 j) fun a => by fin_cases a; rfl)

-- What the host makes of the messages and their two slabs: normalise by the slabs' mean and variance, scale, shift, rectify.
def hBnRelu (M : Mat 640000 128) (S Q : Mat 16 128) (g b : Row 128) : Mat 640000 128 :=
  maximumf
    (addf
      (mulf (mulf (under g) (subf M (under (hMean reducesTo_S16x128_S128_d0 bcast_S_S128 0x491C4000#32 S))))
        (under (Host.rsqrt (addf (hVar reducesTo_S16x128_S128_d0 bcast_S_S128 0x491C4000#32 S Q)
          (broadcastInDim S128 ![] bcast_S_S128 (constant (F := Ideal) S_ .f32 0x3727C5AC#32))))))
      (under b))
    (broadcastInDim S640000x128 ![] bcast_S_S640000x128 (constant (F := Ideal) S_ .f32 0x00000000#32))

theorem hBnRelu_eq (M : Mat 640000 128) (S Q : Mat 16 128) (g b : Row 128) :
    hBnRelu M S Q g b = bnrelu M (meanK nE S) (varK nE S Q) g b := by
  funext i
  obtain ⟨a, j, rfl⟩ : ∃ (a : Fin 640000) (j : Fin 128), i = ix2 a j := ⟨i 0, i 1, eq_ix2 i⟩
  unfold hBnRelu bnrelu
  rw [at2_apply, maximumf_apply, broadcastInDim_scalar_apply, constant_apply, addf_apply, mulf_apply, mulf_apply, subf_apply,
    under_apply, under_apply, under_apply, under_apply, hMean_eq reducesTo_S16x128_S128_d0 (by decide),
    hVar_eq reducesTo_S16x128_S128_d0 (by decide)]
  show max (_ * _ * Ideal.rsqrt (addf (varK nE S Q)
    (broadcastInDim S128 ![] bcast_S_S128 (constant (F := Ideal) S_ .f32 0x3727C5AC#32)) (ix1 j)) + _) _ = _
  rw [addf_apply, broadcastInDim_scalar_apply, constant_apply]
  rfl

-- The first two host stretches after the second launch, from any contents at their start.
theorem relu_run (V : Valuation τ sig (Elt Ideal)) :
    (StableHlo.after hostOps2_1 (StableHlo.after hostOps2 V) (Proc.devRef .tc main_v35) : Mat 640000 128)
      = hBnRelu (V (Proc.devRef .tc main_v7_0)) (V (Proc.devRef .tc main_v7_1)) (V (Proc.devRef .tc main_v7_2))
          (V (Proc.devRef .tc main_arg9)) (V (Proc.devRef .tc main_arg10)) := by
  after_results_simp
  rfl

-- The third: the exact sum of the rows into the rows of an all-zero table that the destination indices name.
theorem scatter_run (V : Valuation τ sig (Elt Ideal)) :
    (StableHlo.after hostOps2_2 V (Proc.devRef .tc main_v38) : Mat 100000 128)
      = scat scatter_S100000x128_S640000x1_S640000x128_1_0_0_1
          (fun i => (V (Proc.devRef .tc main_v3) : IVec (⟨1, ![640000]⟩ : Shape) 32) (ix1 ⟨(i 0).val, idx2_lt0 i⟩))
          (V (Proc.devRef .tc main_v35)) := by
  after_results
  have hz : (broadcastInDim S100000x128 ![] bcast_S_S100000x128 (constant (F := Ideal) S_ .f32 0x00000000#32)
      : Mat 100000 128) = fun _ => z32 := funext fun i => by rw [broadcastInDim_scalar_apply, constant_apply]; rfl
  have hi : (broadcastInDim S640000x1 ![0] bcast_S640000_S640000x1_0
      (V (Proc.devRef .tc main_v3) : IVec (⟨1, ![640000]⟩ : Shape) 32) : IdxCol 640000)
      = fun i => (V (Proc.devRef .tc main_v3) : IVec (⟨1, ![640000]⟩ : Shape) 32) (ix1 ⟨(i 0).val, idx2_lt0 i⟩) :=
    funext fun i => broadcastInDim_apply ![0] bcast_S640000_S640000x1_0 _ i (ix1 ⟨(i 0).val, idx2_lt0 i⟩) fun a => by
      fin_cases a; rfl
  unfold scat
  rw [← hz, ← hi]
  rfl

-- The summed messages at the third launch's entry, from what the second launch's entry holds.
theorem y_eq :
    (V8 m ρ c main_v38 : Mat 100000 128)
      = scat scatter_S100000x128_S640000x1_S640000x128_1_0_0_1
          (fun i => (V4 m ρ c main_v3 : IVec (⟨1, ![640000]⟩ : Shape) 32) (ix1 ⟨(i 0).val, idx2_lt0 i⟩))
          (bnrelu (M4 m ρ c) (statKE (M4 m ρ c)).1 (statKE (M4 m ρ c)).2 (m ((c : Thread nD τ).loc main_arg9))
            (m ((c : Thread nD τ).loc main_arg10))) := by
  have hX : (W7 m ρ c (Proc.devRef .tc main_v35) : Mat 640000 128)
      = bnrelu (M4 m ρ c) (statKE (M4 m ρ c)).1 (statKE (M4 m ρ c)).2 (m ((c : Thread nD τ).loc main_arg9))
          (m ((c : Thread nD τ).loc main_arg10)) := by
    refine (relu_run (W5 m ρ c)).trans ?_
    rw [show (W5 m ρ c (Proc.devRef .tc main_v7_0) : Mat 640000 128) = M4 m ρ c from
        (W5_arr m ρ c 7).trans (Region1.msg_eq (V4 m ρ) c),
      show (W5 m ρ c (Proc.devRef .tc main_v7_1) : Mat 16 128) = slabSum 80 4000 hrowE (M4 m ρ c) from
        (W5_arr m ρ c 8).trans (Region1.sum_eq (V4 m ρ) c),
      show (W5 m ρ c (Proc.devRef .tc main_v7_2) : Mat 16 128) = slabSum 80 4000 hrowE (sq (M4 m ρ c)) from
        (W5_arr m ρ c 9).trans (Region1.sumsq_eq (V4 m ρ) c),
      show (W5 m ρ c (Proc.devRef .tc main_arg9) : Row 128) = m ((c : Thread nD τ).loc main_arg9) from
        (W5_of_ne m ρ c main_arg9 (by decide)).trans (V4_arg m ρ c main_arg9 (by decide)),
      show (W5 m ρ c (Proc.devRef .tc main_arg10) : Row 128) = m ((c : Thread nD τ).loc main_arg10) from
        (W5_of_ne m ρ c main_arg10 (by decide)).trans (V4_arg m ρ c main_arg10 (by decide))]
    exact hBnRelu_eq _ _ _ _ _
  have hd : W7 m ρ c (Proc.devRef .tc main_v3) = V4 m ρ c main_v3 :=
    (keep2.2.1.after _ (b := main_v3) (by decide)).trans ((keep2.1.after _ (b := main_v3) (by decide)).trans (W5_of_ne m ρ c main_v3 (by decide)))
  refine (scatter_run (W7 m ρ c)).trans ?_
  rw [hd, hX]

end Cert.KernelIdeal.Scatter

end
-- ==== Proof.Region2.lean ====
import proofs.«419543_j12017318494892_2_alg».proof.Proof.Gen.KernelIdeal.Frame
import proofs.«419543_j12017318494892_2_alg».proof.Proof.LibTile
import Idealize.ShloMosaic.Lib.ValueLayout
import Idealize.ShloMosaic.Lib.Pipeline.Value

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Spec Cert.Tile

variable (V : (c : Dev nD) → (b : Ref sig .tc) → Buf (Elt Ideal) ((c : Thread nD τ).loc b))

abbrev p1Of (c : Dev nD) : Mat 100000 256 := mm (V c main_v38 : Mat 100000 128) (V c main_arg11 : Mat 128 256)

theorem pay3_apply (x0 : Vec Ideal S2000x128 .f32) (x1 : Vec Ideal S128x256 .f32) (q : Fin 2000) (j : Fin 256) :
    k2_pay3 x0 x1 (ix2 q j) = ∑ l : Fin 128, x0 (ix2 q l) * x1 (ix2 l j) := by
  unfold k2_pay3
  rw [shapeCast_self]
  exact matmul_zero_at (m := 2000) (k := 128) (n := 256) Facts₀.dot_S2000x128_S128x256_S2000x256_1_0_0_1_n_n_wf none _ _ q j

-- Each of the eight rows gains the block's column sums.
theorem colsum_bcast_apply (P : FVec Ideal S2000x256 .f32) (old : Vec Ideal S8x256 .f32) (r : Fin 8) (j : Fin 256) :
    addf (shapeCast S8x256 old shapeCasts_S8x256_S8x256)
      (broadcastTo S8x256 (shapeCast S1x256 (shapeCast S1x256
        (multiReduction (F := Ideal) .add [0] S256 P 0x00000000#32 reduces_S2000x256_S256 (.inl rfl) rfl)
        shapeCasts_S256_S1x256) shapeCasts_S1x256_S1x256) broadcasts_S1x256_S8x256) (ix2 r j)
      = old (ix2 r j) + ∑ q : Fin 2000, P (ix2 q j) := by
  rw [addf_apply, shapeCast_self, shapeCast_self]
  refine congrArg (old (ix2 r j) + ·) ?_
  refine (broadcastTo_1b_ab_apply _ broadcasts_S1x256_S8x256 r j).trans ?_
  refine (shapeCast_a_1a_apply _ shapeCasts_S256_S1x256 (0 : Fin 1) j).trans ?_
  exact colsum_at P reduces_S2000x256_S256 j

section
variable {F : FTy → Type} [FloatOps F] (c : Dev nD) (i : grid2.Coords)
  (a2 : Memref sig .tc .vmem S2000x128 .f32) (h2 : a2.IsWhole) (a3 : Memref sig .tc .vmem S128x256 .f32) (h3 : a3.IsWhole)
  (a4 : Memref sig .tc .vmem S8x256 .f32) (h4 : a4.IsWhole) (a5 : Memref sig .tc .vmem S8x256 .f32) (h5 : a5.IsWhole)
  (x0 : Vec F S2000x128 .f32) (x1 : Vec F S128x256 .f32)

-- At the first tile of a run the two blocks are the updates of the zero block.
theorem out_A (hc : cond2_0 i) :
    (out2_A_2 c i a2 h2 a3 h3 a4 h4 a5 h5 hc x0 x1, out2_A_3 c i a2 h2 a3 h3 a4 h4 a5 h5 hc x0 x1)
      = (k2_pay4 x0 x1 k2_pay1, k2_pay5 x0 x1 k2_pay2) := by
  unfold out2_A_2 out2_A_3
  rw [View.read_writes_eq_canon _ _ _ (cover2_A_2 c i a2 h2 a3 h3 a4 h4 a5 h5 hc x0 x1),
    View.read_writes_eq_canon _ _ _ (cover2_A_3 c i a2 h2 a3 h3 a4 h4 a5 h5 hc x0 x1)]
  unfold kernelRun2_A
  dsimp only
  sl_unfold_words
  rw [View.canon_cons_unit_zero (S := S8x256) hz2, View.canon_cons_unit_zero (S := S8x256) hz2]
  simp only [View.readCov_unit_zero (S := S8x256) _ hz2, View.readAt_eq_ld, h2.read_unread, h3.read_unread,
    View.ld_unit_zero (S := S2000x128) hz2, View.ld_unit_zero (S := S128x256) hz2, View.ld_unit_zero (S := S8x256) hz2]

-- At a later tile they are the updates of what the tile before left.
theorem out_B (hc : ¬cond2_0 i) (xo2 xo3 : Vec F S8x256 .f32) :
    (out2_B_2 c i a2 h2 a3 h3 a4 h4 a5 h5 hc x0 x1 xo2 xo3, out2_B_3 c i a2 h2 a3 h3 a4 h4 a5 h5 hc x0 x1 xo2 xo3)
      = (k2_pay4 x0 x1 xo2, k2_pay5 x0 x1 xo3) := by
  unfold out2_B_2 out2_B_3
  rw [View.read_writes_eq_canon _ _ _ (cover2_B_2 c i a2 h2 a3 h3 a4 h4 a5 h5 hc x0 x1 xo2 xo3),
    View.read_writes_eq_canon _ _ _ (cover2_B_3 c i a2 h2 a3 h3 a4 h4 a5 h5 hc x0 x1 xo2 xo3)]
  unfold kernelRun2_B
  dsimp only
  sl_unfold_words
  rw [View.canon_unit_zero hz2, View.canon_unit_zero hz2]
  simp only [View.readAt_eq_ld, h2.read_unread, h3.read_unread, h4.read_unread, h5.read_unread,
    View.ld_unit_zero (S := S2000x128) hz2, View.ld_unit_zero (S := S128x256) hz2, View.ld_unit_zero (S := S8x256) hz2]

end

theorem idx_facts : ∀ t : Fin cfg2.N,
    win2_0.index t (0 : Fin 2) = t.val ∧ win2_0.index t (1 : Fin 2) = 0
    ∧ win2_1.index t = 0
    ∧ win2_2.index t (0 : Fin 2) = t.val / 25 ∧ win2_2.index t (1 : Fin 2) = 0
    ∧ win2_3.index t (0 : Fin 2) = t.val / 25 ∧ win2_3.index t (1 : Fin 2) = 0 :=
  (by decide +kernel : ∀ t : Fin grid2.N, _)

-- Block t is row block t of the summed messages and row block t / 25 of either 16-row array.
theorem embs (t : Fin cfg2.N) :
    (∀ (q : Fin 2000) (l : Fin 128) (h : t.val * 2000 + q.val < 100000),
      ((cfg2.win 0).blk t).view.emb (ix2 q l) = ix2 (⟨t.val * 2000 + q.val, h⟩ : Fin 100000) l)
    ∧ (∀ (r : Fin 8) (j : Fin 256) (h : t.val / 25 * 8 + r.val < 16),
      ((cfg2.win 2).blk t).view.emb (ix2 r j) = ix2 (⟨t.val / 25 * 8 + r.val, h⟩ : Fin 16) j)
    ∧ (∀ (r : Fin 8) (j : Fin 256) (h : t.val / 25 * 8 + r.val < 16),
      ((cfg2.win 3).blk t).view.emb (ix2 r j) = ix2 (⟨t.val / 25 * 8 + r.val, h⟩ : Fin 16) j) := by
  obtain ⟨a0, a1, -, c0, c1, d0, d1⟩ := idx_facts t
  refine ⟨fun q l h => Shape.idx_ext₂ ?_ ?_, fun r j h => Shape.idx_ext₂ ?_ ?_, fun r j h => Shape.idx_ext₂ ?_ ?_⟩
  · show win2_0.index t (0 : Fin 2) * 2000 + 1 * q.val = t.val * 2000 + q.val; rw [a0]; omega
  · show win2_0.index t (1 : Fin 2) * 128 + 1 * l.val = l.val; rw [a1]; omega
  · show win2_2.index t (0 : Fin 2) * 8 + 1 * r.val = t.val / 25 * 8 + r.val; rw [c0]; omega
  · show win2_2.index t (1 : Fin 2) * 256 + 1 * j.val = j.val; rw [c1]; omega
  · show win2_3.index t (0 : Fin 2) * 8 + 1 * r.val = t.val / 25 * 8 + r.val; rw [d0]; omega
  · show win2_3.index t (1 : Fin 2) * 256 + 1 * j.val = j.val; rw [d1]; omega

-- Tile t's product is the tile's rows of the pre-activation, so the updates add its column sums and those of its square.
theorem upd (c : Dev nD) (t : Fin cfg2.N) (o2 o3 : Vec Ideal S8x256 .f32) (r : Fin 8) (j : Fin 256) :
    k2_pay4 (iblk2 V c 0 t) (iblk2 V c 1 t) o2 (ix2 r j) = o2 (ix2 r j) + tileSum 2000 (p1Of V c) t.val j
    ∧ k2_pay5 (iblk2 V c 0 t) (iblk2 V c 1 t) o3 (ix2 r j) = o3 (ix2 r j) + tileSum 2000 (sq (p1Of V c)) t.val j := by
  have hN : t.val < 50 := lt_of_lt_of_eq t.isLt (show cfg2.N = 50 from N_2)
  obtain ⟨e0, -⟩ := embs t
  rw [show iblk2 V c 1 t = (V c main_arg11 : Mat 128 256) from ld_index_zero (idx_facts t).2.2.1 _ _]
  have h3 : ∀ q : Fin 2000, ∃ h : t.val * 2000 + q.val < 100000,
      k2_pay3 (iblk2 V c 0 t) (V c main_arg11 : Mat 128 256) (ix2 q j) = p1Of V c (ix2 ⟨_, h⟩ j) := fun q => by
    have h : t.val * 2000 + q.val < 100000 := by have := q.isLt; omega
    refine ⟨h, (pay3_apply _ _ q j).trans ?_⟩
    unfold p1Of mm
    rw [at2_apply]
    exact Finset.sum_congr rfl fun l _ => by
      rw [show iblk2 V c 0 t (ix2 q l) = (V c main_v38 : Mat 100000 128) (ix2 ⟨_, h⟩ l) from congrArg (V c main_v38) (e0 q l h)]
  unfold k2_pay4 k2_pay5 tileSum
  exact ⟨(colsum_bcast_apply (k2_pay3 _ _) o2 r j).trans (congrArg (_ + ·) (Finset.sum_congr rfl fun q _ => by
      obtain ⟨h, e⟩ := h3 q; rw [dif_pos h]; exact e)),
    (colsum_bcast_apply (mulf (k2_pay3 _ _) (k2_pay3 _ _)) o3 r j).trans (congrArg (_ + ·) (Finset.sum_congr rfl fun q _ => by
      obtain ⟨h, e⟩ := h3 q; rw [dif_pos h, mulf_apply, e]; rfl))⟩

theorem first (c : Dev nD) (t : Fin cfg2.N) (h0 : t.val % 25 = 0) (r : Fin 8) (j : Fin 256) :
    (outsAt2 V c t.val t.isLt).1 (ix2 r j) = tileSum 2000 (p1Of V c) t.val j
    ∧ (outsAt2 V c t.val t.isLt).2 (ix2 r j) = tileSum 2000 (sq (p1Of V c)) t.val j := by
  have u := upd V c t (k2_pay1 (F := Ideal)) (k2_pay2 (F := Ideal)) r j
  rw [show k2_pay1 (F := Ideal) (ix2 r j) = 0 from Ideal.ofBits_zero_f32,
    show k2_pay2 (F := Ideal) (ix2 r j) = 0 from Ideal.ofBits_zero_f32, zero_add, zero_add] at u
  rw [outsAt2_A V c t h0, out_A]
  exact u

theorem next (c : Dev nD) (t : Fin cfg2.N) (h0 : ¬t.val % 25 = 0) (r : Fin 8) (j : Fin 256) :
    (outsAt2 V c t.val t.isLt).1 (ix2 r j)
      = (outsAt2 V c (t.val - 1) (Nat.lt_of_le_of_lt (Nat.sub_le _ _) t.isLt)).1 (ix2 r j) + tileSum 2000 (p1Of V c) t.val j
    ∧ (outsAt2 V c t.val t.isLt).2 (ix2 r j)
      = (outsAt2 V c (t.val - 1) (Nat.lt_of_le_of_lt (Nat.sub_le _ _) t.isLt)).2 (ix2 r j) + tileSum 2000 (sq (p1Of V c)) t.val j := by
  rw [outsAt2_B V c t h0, out_B]
  exact upd V c t _ _ r j

-- After point n every row of the two blocks holds the column sums of the tiles of n's run of 25 so far.
theorem inv (c : Dev nD) (n : ℕ) (hn : n < cfg2.N) (r : Fin 8) (j : Fin 256) :
    (outsAt2 V c n hn).1 (ix2 r j) = ∑ s ∈ Finset.range (n % 25 + 1), tileSum 2000 (p1Of V c) (n / 25 * 25 + s) j
    ∧ (outsAt2 V c n hn).2 (ix2 r j) = ∑ s ∈ Finset.range (n % 25 + 1), tileSum 2000 (sq (p1Of V c)) (n / 25 * 25 + s) j :=
  ⟨fold_runs 25 (fun n h => (outsAt2 V c n h).1 (ix2 r j)) (fun n => tileSum 2000 (p1Of V c) n j)
      (fun n h h0 => (first V c ⟨n, h⟩ h0 r j).1) (fun n h h0 => (next V c ⟨n + 1, h⟩ h0 r j).1) n hn,
    fold_runs 25 (fun n h => (outsAt2 V c n h).2 (ix2 r j)) (fun n => tileSum 2000 (sq (p1Of V c)) n j)
      (fun n h h0 => (first V c ⟨n, h⟩ h0 r j).2) (fun n h h0 => (next V c ⟨n + 1, h⟩ h0 r j).2) n hn⟩

-- At the last point of a run of 25 the two blocks are eight rows of the two slabs.
theorem flushed (c : Dev nD) (t : Fin cfg2.N) (h24 : t.val % 25 = 24) :
    (dat2 V c).flushed 2 t = ((cfg2.win 2).blk t).view.read (Elt Ideal) (slabSum 25 2000 hrowN (p1Of V c))
    ∧ (dat2 V c).flushed 3 t = ((cfg2.win 3).blk t).view.read (Elt Ideal) (slabSum 25 2000 hrowN (sq (p1Of V c))) := by
  have hN : t.val < 50 := lt_of_lt_of_eq t.isLt (show cfg2.N = 50 from N_2)
  obtain ⟨-, e2, e3⟩ := embs t
  have hR : ∀ r : Fin 8, t.val / 25 * 8 + r.val < 16 := fun r => by have := r.isLt; omega
  have key : ∀ (X : Mat 100000 256) (r : Fin 8) (j : Fin 256),
      ∑ s ∈ Finset.range (t.val % 25 + 1), tileSum 2000 X (t.val / 25 * 25 + s) j
        = slabSum 25 2000 hrowN X (ix2 (⟨_, hR r⟩ : Fin 16) j) := fun X r j => by
    rw [h24, ← slab_row]
    exact Finset.sum_congr rfl fun s _ => congrArg (tileSum 2000 X · j) (by
      show t.val / 25 * 25 + s = (t.val / 25 * 8 + r.val) / 8 * 25 + s; have := r.isLt; omega)
  constructor <;> funext y <;> obtain ⟨r, j, rfl⟩ : ∃ (r : Fin 8) (j : Fin 256), y = ix2 r j := ⟨y 0, y 1, eq_ix2 y⟩
  · show (cfg2.win 2).cut (grid2.coords t) ((dat2 V c).after 2 t) (ix2 r j)
      = slabSum 25 2000 hrowN (p1Of V c) (((cfg2.win 2).blk t).view.emb (ix2 r j))
    rw [after2_2, e2 r j (hR r)]
    exact (inv V c t.val t.isLt r j).1.trans (key _ r j)
  · show (cfg2.win 3).cut (grid2.coords t) ((dat2 V c).after 3 t) (ix2 r j)
      = slabSum 25 2000 hrowN (sq (p1Of V c)) (((cfg2.win 3).blk t).view.emb (ix2 r j))
    rw [after2_3, e3 r j (hR r)]
    exact (inv V c t.val t.isLt r j).2.trans (key _ r j)

-- Row R of either 16-row array is covered by the block of point 25 (R / 8) + 24.
theorem cover (i : S16x256.Idx) : ∃ t : Fin cfg2.N, t.val % 25 = 24
    ∧ i ∈ ((cfg2.win 2).blk t).view.set ∧ i ∈ ((cfg2.win 3).blk t).view.set := by
  obtain ⟨a, b, rfl⟩ : ∃ (a : Fin 16) (b : Fin 256), i = ix2 a b := ⟨i 0, i 1, eq_ix2 i⟩
  obtain ⟨t, ht⟩ : ∃ t : Fin cfg2.N, t.val = a.val / 8 * 25 + 24 :=
    ⟨⟨_, by rw [show cfg2.N = 50 from N_2]; omega⟩, rfl⟩
  obtain ⟨r, hr⟩ : ∃ r : Fin 8, r.val = a.val % 8 := ⟨⟨_, Nat.mod_lt _ (by omega)⟩, rfl⟩
  obtain ⟨-, e2, e3⟩ := embs t
  have hR : t.val / 25 * 8 + r.val < 16 := by omega
  have e : ix2 (⟨_, hR⟩ : Fin 16) b = ix2 a b := congrArg (ix2 · b) (Fin.ext (by show t.val / 25 * 8 + r.val = a.val; omega))
  exact ⟨t, by omega, ((e2 r b hR).trans e) ▸ View.emb_mem_set ((cfg2.win 2).blk t).view (ix2 r b),
    ((e3 r b hR).trans e) ▸ View.emb_mem_set ((cfg2.win 3).blk t).view (ix2 r b)⟩

theorem sum_eq (c : Dev nD) : ((dat2 V c).arrAt 2 cfg2.N : Mat 16 256) = slabSum 25 2000 hrowN (p1Of V c) :=
  (dat2 V c).arrAt_eq_of_cover 2 _ (fun t hf => (flushed V c t ((flush2_2 t).mp hf)).1) fun i =>
    let ⟨t, h, m, _⟩ := cover i; ⟨t, (flush2_2 t).mpr h, m⟩

theorem sumsq_eq (c : Dev nD) : ((dat2 V c).arrAt 3 cfg2.N : Mat 16 256) = slabSum 25 2000 hrowN (sq (p1Of V c)) :=
  (dat2 V c).arrAt_eq_of_cover 3 _ (fun t hf => (flushed V c t ((flush2_3 t).mp hf)).2) fun i =>
    let ⟨t, h, _, m⟩ := cover i; ⟨t, (flush2_3 t).mpr h, m⟩

end Cert.KernelIdeal.Region2

end
-- ==== Proof.Region3.lean ====
import proofs.«419543_j12017318494892_2_alg».proof.Proof.Gen.KernelIdeal.Frame
import proofs.«419543_j12017318494892_2_alg».proof.Proof.LibTile
import Idealize.ShloMosaic.Lib.ValueLayout
import Idealize.ShloMosaic.Lib.Pipeline.Value

noncomputable section

namespace Cert.KernelIdeal.Region3

open Cert.KernelIdeal Cert.KernelIdeal.Gen Idealize.ShloMosaic Idealize.ShloMosaic.TcCoe Idealize.ShloMosaic.ValueIdx Cert.Spec Cert.Tile

theorem row_over_rows {n : ℕ} (v : FVec Ideal S256 .f32) (hc : S256.ShapeCasts S1x256)
    (hb : S1x256.Broadcasts (⟨2, ![n, 256]⟩ : Shape)) (p : Fin n) (q : Fin 256) :
    broadcastTo (⟨2, ![n, 256]⟩ : Shape) (shapeCast S1x256 v hc) hb (ix2 p q) = v (ix1 q) :=
  (broadcastTo_1b_ab_apply _ hb p q).trans (shapeCast_a_1a_apply v hc 0 q)

theorem first_product_apply (a : FVec Ideal S2000x128 .bf16) (b : FVec Ideal S128x256 .bf16) (p : Fin 2000) (l : Fin 256) :
    matmul dot_S2000x128_S128x256_S2000x256_1_0_0_1_n_n none a b (constant (F := Ideal) S2000x256 .f32 0x00000000#32) (ix2 p l)
      = ∑ k : Fin 128, a (ix2 p k) * b (ix2 k l) :=
  matmul_zero_at (m := 2000) (k := 128) (n := 256) Facts₀.dot_S2000x128_S128x256_S2000x256_1_0_0_1_n_n_wf none a b p l

theorem second_product_apply (a : FVec Ideal S2000x256 .bf16) (b : FVec Ideal S256x256 .bf16) (p : Fin 2000) (q : Fin 256) :
    matmul dot_S2000x256_S256x256_S2000x256_1_0_0_1_n_n none a b (constant (F := Ideal) S2000x256 .f32 0x00000000#32) (ix2 p q)
      = ∑ l : Fin 256, a (ix2 p l) * b (ix2 l q) :=
  matmul_zero_at (m := 2000) (k := 256) (n := 256) Facts₀.dot_S2000x256_S256x256_S2000x256_1_0_0_1_n_n_wf none a b p q

-- Row r of the tile is computed from row R of Y exactly as the specification computes its row R.
theorem tile_row_eq (Y : Mat 100000 128) (x0 : Vec Ideal S2000x128 .f32) (x1 : Vec Ideal S128x256 .f32) (x2 x3 x4 x5 : Vec Ideal S256 .f32)
    (x6 : Vec Ideal S256x256 .f32) (R : Fin 100000) (r : Fin 2000) (e0 : ∀ k : Fin 128, x0 (ix2 r k) = Y (ix2 R k)) (q : Fin 256) :
    k3_pay5 x0 x1 x2 x3 x4 x5 x6 (ix2 r q) = pre2 Y x1 (x2, x3) x4 x5 x6 (ix2 R q) := by
  unfold k3_pay5
  refine (second_product_apply _ _ r q).trans ?_
  show _ = ∑ l : Fin 256, bnrelu (mm Y x1) x2 x3 x4 x5 (ix2 R l) * x6 (ix2 l q)
  refine Finset.sum_congr rfl fun l _ => ?_
  simp only [truncf_apply, maximumf_apply, addf_apply, mulf_apply, subf_apply, broadcast_apply, shapeCast_self,
    row_over_rows, first_product_apply, broadcastTo_1b_ab_apply, rsqrt_apply, shapeCast_a_1a_apply, e0]
  rfl

-- Both updates add entry q of the row vector at row a, column q.
theorem acc_apply (v : FVec Ideal S256 .f32) (w : Vec Ideal S8x256 .f32) (a : Fin 8) (q : Fin 256) :
    k3_pay1 v w (ix2 a q) = w (ix2 a q) + v (ix1 q) ∧ k3_pay2 v w (ix2 a q) = w (ix2 a q) + v (ix1 q) := by
  unfold k3_pay1 k3_pay2
  simp only [addf_apply, shapeCast_self, row_over_rows, and_self]

theorem zero_apply (j : S8x256.Idx) : k3_pay3 (F := Ideal) j = 0 ∧ k3_pay4 (F := Ideal) j = 0 :=
  ⟨Ideal.ofBits_zero_f32, Ideal.ofBits_zero_f32⟩

section Pieces
variable {F : FTy → Type} [FloatOps F] (c : Dev nD) (i : grid3.Coords)
  (a2 : Memref sig .tc .vmem S2000x128 .f32) (a3 : Memref sig .tc .vmem S128x256 .f32) (a4 a5 a6 a7 : Memref sig .tc .vmem S256 .f32)
  (a8 : Memref sig .tc .vmem S256x256 .f32) (a9 a10 : Memref sig .tc .vmem S8x256 .f32) (h2 : a2.IsWhole) (h3 : a3.IsWhole) (h4 : a4.IsWhole)
  (h5 : a5.IsWhole) (h6 : a6.IsWhole) (h7 : a7.IsWhole) (h8 : a8.IsWhole) (h9 : a9.IsWhole) (h10 : a10.IsWhole)
  (x0 : Vec F S2000x128 .f32) (x1 : Vec F S128x256 .f32) (x2 x3 x4 x5 : Vec F S256 .f32) (x6 : Vec F S256x256 .f32)

-- At a core's first tile both blocks restart from zero.
theorem first_tile (hc : cond3_0 i) :
    out3_A_7 c i a2 h2 a3 h3 a4 h4 a5 h5 a6 h6 a7 h7 a8 h8 a9 h9 a10 h10 hc x0 x1 x2 x3 x4 x5 x6 = k3_pay1 (k3_pay6 x0 x1 x2 x3 x4 x5 x6) (k3_pay3 (F := F))
    ∧ out3_A_8 c i a2 h2 a3 h3 a4 h4 a5 h5 a6 h6 a7 h7 a8 h8 a9 h9 a10 h10 hc x0 x1 x2 x3 x4 x5 x6 = k3_pay2 (k3_pay7 x0 x1 x2 x3 x4 x5 x6) (k3_pay4 (F := F)) := by
  unfold out3_A_7 out3_A_8
  rw [View.read_writes_eq_canon _ _ _ (cover3_A_7 c i a2 h2 a3 h3 a4 h4 a5 h5 a6 h6 a7 h7 a8 h8 a9 h9 a10 h10 hc x0 x1 x2 x3 x4 x5 x6), View.read_writes_eq_canon _ _ _ (cover3_A_8 c i a2 h2 a3 h3 a4 h4 a5 h5 a6 h6 a7 h7 a8 h8 a9 h9 a10 h10 hc x0 x1 x2 x3 x4 x5 x6)]
  unfold kernelRun3_A
  dsimp only
  sl_unfold_words
  simp only [View.canon_cons_unit_zero (S := S8x256) hz2, View.readCov_unit_zero (S := S8x256) _ hz2, View.readAt_eq_ld, h2.read_unread, h3.read_unread, h4.read_unread, h5.read_unread, h6.read_unread, h7.read_unread, h8.read_unread,
    View.ld_unit_zero (S := S8x256) hz2, View.ld_unit_zero (S := S2000x128) hz2, View.ld_unit_zero (S := S128x256) hz2, View.ld_unit_zero (S := S256x256) hz2, View.ld_unit_zero (S := S256) hz1, and_self]

-- At every other tile they continue from what was there.
theorem later_tile (hc : ¬cond3_0 i) (xo7 xo8 : Vec F S8x256 .f32) :
    out3_B_7 c i a2 h2 a3 h3 a4 h4 a5 h5 a6 h6 a7 h7 a8 h8 a9 h9 a10 h10 hc x0 x1 x2 x3 x4 x5 x6 xo7 xo8 = k3_pay1 (k3_pay6 x0 x1 x2 x3 x4 x5 x6) xo7
    ∧ out3_B_8 c i a2 h2 a3 h3 a4 h4 a5 h5 a6 h6 a7 h7 a8 h8 a9 h9 a10 h10 hc x0 x1 x2 x3 x4 x5 x6 xo7 xo8 = k3_pay2 (k3_pay7 x0 x1 x2 x3 x4 x5 x6) xo8 := by
  unfold out3_B_7 out3_B_8
  rw [View.read_writes_eq_canon _ _ _ (cover3_B_7 c i a2 h2 a3 h3 a4 h4 a5 h5 a6 h6 a7 h7 a8 h8 a9 h9 a10 h10 hc x0 x1 x2 x3 x4 x5 x6 xo7 xo8), View.read_writes_eq_canon _ _ _ (cover3_B_8 c i a2 h2 a3 h3 a4 h4 a5 h5 a6 h6 a7 h7 a8 h8 a9 h9 a10 h10 hc x0 x1 x2 x3 x4 x5 x6 xo7 xo8)]
  unfold kernelRun3_B
  dsimp only
  sl_unfold_words
  simp only [View.canon_unit_zero (S := S8x256) hz2, View.readAt_eq_ld, h2.read_unread, h3.read_unread, h4.read_unread, h5.read_unread, h6.read_unread, h7.read_unread, h8.read_unread, h9.read_unread, h10.read_unread,
    View.ld_unit_zero (S := S8x256) hz2, View.ld_unit_zero (S := S2000x128) hz2, View.ld_unit_zero (S := S128x256) hz2, View.ld_unit_zero (S := S256x256) hz2, View.ld_unit_zero (S := S256) hz1, and_self]

end Pieces

variable (V : (c : Dev nD) → (b : Ref sig .tc) → Buf (Elt Ideal) ((c : Thread nD τ).loc b))

abbrev p2Of (c : Dev nD) : Mat 100000 256 :=
  pre2 (V c main_v38 : Mat 100000 128) (V c main_arg11 : Mat 128 256) ((V c main_v47 : Row 256), (V c main_v51 : Row 256))
    (V c main_arg12 : Row 256) (V c main_arg13 : Row 256) (V c main_arg14 : Mat 256 256)

theorem moving_facts : ∀ t : Fin cfg3.N,
    win3_0.index t (0 : Fin 2) = t.val ∧ win3_0.index t (1 : Fin 2) = 0
    ∧ win3_7.index t (0 : Fin 2) = t.val / 25 ∧ win3_7.index t (1 : Fin 2) = 0
    ∧ win3_8.index t (0 : Fin 2) = t.val / 25 ∧ win3_8.index t (1 : Fin 2) = 0 :=
  (by decide +kernel : ∀ t : Fin grid3.N, _)

theorem whole_facts : ∀ t : Fin cfg3.N,
    win3_1.index t = 0 ∧ win3_2.index t = 0 ∧ win3_3.index t = 0 ∧ win3_4.index t = 0 ∧ win3_5.index t = 0 ∧ win3_6.index t = 0 :=
  (by decide +kernel : ∀ t : Fin grid3.N, _)

theorem node_block_apply (c : Dev nD) (t : Fin cfg3.N) (r : Fin 2000) (k : Fin 128) (h : t.val * 2000 + r.val < 100000) :
    (iblk3 V c 0 t : Vec Ideal S2000x128 .f32) (ix2 r k) = (V c main_v38 : Mat 100000 128) (ix2 ⟨t.val * 2000 + r.val, h⟩ k) := by
  obtain ⟨e0, e1, -⟩ := moving_facts t
  unfold iblk3
  rw [View.read_apply]
  show V c main_v38 _ = V c main_v38 _
  refine congrArg _ (funext fun a => Fin.ext ?_)
  match a with
  | ⟨0, _⟩ => exact (win3_0.rect_emb_val t (ix2 r k) (0 : Fin 2)).trans (by rw [e0]; rfl)
  | ⟨1, _⟩ => exact win3_0.rect_emb_val_of_index_zero t (1 : Fin 2) e1 (ix2 r k)

-- A block whose index is zero on every axis is the whole array.
theorem whole_blocks (c : Dev nD) (t : Fin cfg3.N) :
    (iblk3 V c 1 t : Vec Ideal S128x256 .f32) = V c main_arg11 ∧ (iblk3 V c 2 t : Vec Ideal S256 .f32) = V c main_v47
    ∧ (iblk3 V c 3 t : Vec Ideal S256 .f32) = V c main_v51 ∧ (iblk3 V c 4 t : Vec Ideal S256 .f32) = V c main_arg12
    ∧ (iblk3 V c 5 t : Vec Ideal S256 .f32) = V c main_arg13 ∧ (iblk3 V c 6 t : Vec Ideal S256x256 .f32) = V c main_arg14 := by
  obtain ⟨e1, e2, e3, e4, e5, e6⟩ := whole_facts t
  exact ⟨ld_index_zero e1 _ _, ld_index_zero e2 _ _, ld_index_zero e3 _ _, ld_index_zero e4 _ _, ld_index_zero e5 _ _, ld_index_zero e6 _ _⟩

-- The rows of point t's tile are rows 2000 t … of the whole pre-activation, so its column sums are that matrix's tile sums.
theorem point_sums (c : Dev nD) (t : Fin cfg3.N) (q : Fin 256) :
    k3_pay6 (iblk3 V c 0 t) (iblk3 V c 1 t) (iblk3 V c 2 t) (iblk3 V c 3 t) (iblk3 V c 4 t) (iblk3 V c 5 t) (iblk3 V c 6 t) (ix1 q) = tileSum 2000 (p2Of V c) t.val q
    ∧ k3_pay7 (iblk3 V c 0 t) (iblk3 V c 1 t) (iblk3 V c 2 t) (iblk3 V c 3 t) (iblk3 V c 4 t) (iblk3 V c 5 t) (iblk3 V c 6 t) (ix1 q) = tileSum 2000 (sq (p2Of V c)) t.val q := by
  have hr (r : Fin 2000) : t.val * 2000 + r.val < 100000 := by
    have := r.isLt; have := lt_of_lt_of_eq t.isLt (show cfg3.N = 50 from N_3); omega
  obtain ⟨w1, w2, w3, w4, w5, w6⟩ := whole_blocks V c t
  have row (r : Fin 2000) : k3_pay5 (iblk3 V c 0 t) (iblk3 V c 1 t) (iblk3 V c 2 t) (iblk3 V c 3 t) (iblk3 V c 4 t) (iblk3 V c 5 t) (iblk3 V c 6 t) (ix2 r q) = p2Of V c (ix2 ⟨_, hr r⟩ q) := by
    rw [w1, w2, w3, w4, w5, w6]
    exact tile_row_eq _ _ _ _ _ _ _ _ ⟨_, hr r⟩ r (fun k => node_block_apply V c t r k (hr r)) q
  unfold k3_pay6 k3_pay7 tileSum
  refine ⟨(colsum_at _ reduces_S2000x256_S256 q).trans (Finset.sum_congr rfl fun r _ => ?_), (colsum_at _ reduces_S2000x256_S256 q).trans (Finset.sum_congr rfl fun r _ => ?_)⟩
    <;> rw [dif_pos (hr r)]
  · exact row r
  · exact congrArg₂ (· * ·) (row r) (row r)

theorem at_first (c : Dev nD) (t : Fin cfg3.N) (h0 : t.val % 25 = 0) (a : Fin 8) (q : Fin 256) :
    (outsAt3 V c t.val t.isLt).1 (ix2 a q) = tileSum 2000 (p2Of V c) t.val q
    ∧ (outsAt3 V c t.val t.isLt).2 (ix2 a q) = tileSum 2000 (sq (p2Of V c)) t.val q := by
  rw [outsAt3_A V c t h0]
  dsimp only
  refine ⟨(congrFun (first_tile (F := Ideal) ..).1 _).trans ?_, (congrFun (first_tile (F := Ideal) ..).2 _).trans ?_⟩
  · refine (acc_apply _ _ a q).1.trans ?_
    rw [(zero_apply _).1, zero_add]
    exact (point_sums V c t q).1
  · refine (acc_apply _ _ a q).2.trans ?_
    rw [(zero_apply _).2, zero_add]
    exact (point_sums V c t q).2

theorem at_later (c : Dev nD) (t : Fin cfg3.N) (h0 : ¬t.val % 25 = 0) (a : Fin 8) (q : Fin 256) :
    (outsAt3 V c t.val t.isLt).1 (ix2 a q)
      = (outsAt3 V c (t.val - 1) (Nat.lt_of_le_of_lt (Nat.sub_le _ _) t.isLt)).1 (ix2 a q) + tileSum 2000 (p2Of V c) t.val q
    ∧ (outsAt3 V c t.val t.isLt).2 (ix2 a q)
      = (outsAt3 V c (t.val - 1) (Nat.lt_of_le_of_lt (Nat.sub_le _ _) t.isLt)).2 (ix2 a q) + tileSum 2000 (sq (p2Of V c)) t.val q := by
  rw [outsAt3_B V c t h0]
  dsimp only
  refine ⟨(congrFun (later_tile (F := Ideal) ..).1 _).trans ?_, (congrFun (later_tile (F := Ideal) ..).2 _).trans ?_⟩
  · refine (acc_apply _ _ a q).1.trans ?_
    rw [(point_sums V c t q).1]
  · refine (acc_apply _ _ a q).2.trans ?_
    rw [(point_sums V c t q).2]

-- By induction along a core's run of 25 points.
theorem acc_after (c : Dev nD) (a : Fin 8) (q : Fin 256) (n : ℕ) (h : n < cfg3.N) :
    (outsAt3 V c n h).1 (ix2 a q) = ∑ s ∈ Finset.range (n % 25 + 1), tileSum 2000 (p2Of V c) (n / 25 * 25 + s) q
    ∧ (outsAt3 V c n h).2 (ix2 a q) = ∑ s ∈ Finset.range (n % 25 + 1), tileSum 2000 (sq (p2Of V c)) (n / 25 * 25 + s) q :=
  ⟨fold_runs 25 (fun n h => (outsAt3 V c n h).1 (ix2 a q)) (fun n => tileSum 2000 (p2Of V c) n q)
      (fun n h h0 => (at_first V c ⟨n, h⟩ h0 a q).1) (fun n h h0 => (at_later V c ⟨n + 1, h⟩ h0 a q).1) n h,
    fold_runs 25 (fun n h => (outsAt3 V c n h).2 (ix2 a q)) (fun n => tileSum 2000 (sq (p2Of V c)) n q)
      (fun n h h0 => (at_first V c ⟨n, h⟩ h0 a q).2) (fun n h h0 => (at_later V c ⟨n + 1, h⟩ h0 a q).2) n h⟩

-- At a core's last point the run is complete: its 25 tile sums make up the slab's row 8 (t / 25) + a.
theorem last_point (c : Dev nD) (t : Fin cfg3.N) (h24 : t.val % 25 = 24) (a : Fin 8) (q : Fin 256) (I : Fin 2 → ℕ)
    (e0 : I 0 = t.val / 25) (e1 : I 1 = 0) (i : S16x256.Idx) (h0 : (i 0).val = I 0 * 8 + 1 * a.val) (h1 : (i 1).val = I 1 * 256 + 1 * q.val) :
    (outsAt3 V c t.val t.isLt).1 (ix2 a q) = slabSum 25 2000 hrowN (p2Of V c) i
    ∧ (outsAt3 V c t.val t.isLt).2 (ix2 a q) = slabSum 25 2000 hrowN (sq (p2Of V c)) i := by
  have e : t.val / 25 = (i 0).val / 8 := by have := a.isLt; omega
  have hq : i 1 = q := Fin.ext (by omega)
  obtain ⟨s1, s2⟩ := acc_after V c a q t.val t.isLt
  rw [s1, s2, eq_ix2 i, hq, h24, e]
  exact ⟨slab_row 25 2000 hrowN _ (i 0) q, slab_row 25 2000 hrowN _ (i 0) q⟩

theorem flushed7_eq (c : Dev nD) (t : Fin cfg3.N) (hf : (cfg3.win 7).flush t = true) :
    (dat3 V c).flushed 7 t = ((cfg3.win 7).blk t).view.read (Elt Ideal) (slabSum 25 2000 hrowN (p2Of V c)) := by
  obtain ⟨-, -, e0, e1, -⟩ := moving_facts t
  show (cfg3.win 7).cut (grid3.coords t) ((dat3 V c).after 7 t) = _
  rw [after3_7]
  refine funext fun (j : S8x256.Idx) => ?_
  rw [eq_ix2 j]
  exact (last_point V c t ((flush3_7 t).mp hf) (j 0) (j 1) (win3_7.index t) e0 e1 (((cfg3.win 7).blk t).view.emb (ix2 (j 0) (j 1))) rfl rfl).1

theorem flushed8_eq (c : Dev nD) (t : Fin cfg3.N) (hf : (cfg3.win 8).flush t = true) :
    (dat3 V c).flushed 8 t = ((cfg3.win 8).blk t).view.read (Elt Ideal) (slabSum 25 2000 hrowN (sq (p2Of V c))) := by
  obtain ⟨-, -, -, -, e0, e1⟩ := moving_facts t
  show (cfg3.win 8).cut (grid3.coords t) ((dat3 V c).after 8 t) = _
  rw [after3_8]
  refine funext fun (j : S8x256.Idx) => ?_
  rw [eq_ix2 j]
  exact (last_point V c t ((flush3_8 t).mp hf) (j 0) (j 1) (win3_8.index t) e0 e1 (((cfg3.win 8).blk t).view.emb (ix2 (j 0) (j 1))) rfl rfl).2

-- Row i 0 lies among the 8 rows of core (i 0) / 8.
theorem row_in_block (i : S16x256.Idx) (I : Fin 2 → ℕ) (e0 : I 0 = ((i 0).val / 8 * 25 + 24) / 25) (e1 : I 1 = 0) (a : Fin 2) :
    I a * S8x256.size a ≤ (i a).val ∧ (i a).val < I a * S8x256.size a + S8x256.size a := by
  have h0 : (i 0).val < 16 := (i 0).isLt
  have h1 : (i 1).val < 256 := (i 1).isLt
  match a with
  | ⟨0, _⟩ => show I 0 * 8 ≤ (i 0).val ∧ (i 0).val < I 0 * 8 + 8; omega
  | ⟨1, _⟩ => show I 1 * 256 ≤ (i 1).val ∧ (i 1).val < I 1 * 256 + 256; omega

theorem last_lt (i : S16x256.Idx) : (i 0).val / 8 * 25 + 24 < cfg3.N := by
  rw [show cfg3.N = 50 from N_3]; have : (i 0).val < 16 := (i 0).isLt; omega

theorem cover7 (i : S16x256.Idx) : ∃ t : Fin cfg3.N, (cfg3.win 7).flush t = true ∧ i ∈ ((cfg3.win 7).blk t).view.set := by
  obtain ⟨-, -, e0, e1, -⟩ := moving_facts ⟨_, last_lt i⟩
  refine ⟨⟨_, last_lt i⟩, (flush3_7 _).mpr (by show ((i 0).val / 8 * 25 + 24) % 25 = 24; omega), ?_⟩
  show i ∈ ((View.whole main_v52_0).slice (win3_7.rect ⟨_, last_lt i⟩)).set
  rw [View.set_slice_whole, Rect.mem_set_unit]
  exact row_in_block i (win3_7.index ⟨_, last_lt i⟩) e0 e1

theorem cover8 (i : S16x256.Idx) : ∃ t : Fin cfg3.N, (cfg3.win 8).flush t = true ∧ i ∈ ((cfg3.win 8).blk t).view.set := by
  obtain ⟨-, -, -, -, e0, e1⟩ := moving_facts ⟨_, last_lt i⟩
  refine ⟨⟨_, last_lt i⟩, (flush3_8 _).mpr (by show ((i 0).val / 8 * 25 + 24) % 25 = 24; omega), ?_⟩
  show i ∈ ((View.whole main_v52_1).slice (win3_8.rect ⟨_, last_lt i⟩)).set
  rw [View.set_slice_whole, Rect.mem_set_unit]
  exact row_in_block i (win3_8.index ⟨_, last_lt i⟩) e0 e1

theorem sum_eq (c : Dev nD) : ((dat3 V c).arrAt 7 cfg3.N : Mat 16 256) = slabSum 25 2000 hrowN (p2Of V c) :=
  (dat3 V c).arrAt_eq_of_cover 7 (slabSum 25 2000 hrowN (p2Of V c)) (flushed7_eq V c) cover7

theorem sumsq_eq (c : Dev nD) : ((dat3 V c).arrAt 8 cfg3.N : Mat 16 256) = slabSum 25 2000 hrowN (sq (p2Of V c)) :=
  (dat3 V c).arrAt_eq_of_cover 8 (slabSum 25 2000 hrowN (sq (p2Of V c))) (flushed8_eq V c) cover8

end Cert.KernelIdeal.Region3

end
-- ==== Proof.Region4.lean ====
import proofs.«419543_j12017318494892_2_alg».proof.Proof.Gen.KernelIdeal.Frame
import proofs.«419543_j12017318494892_2_alg».proof.Proof.LibTile
import Idealize.ShloMosaic.Lib.ValueLayout

namespace Cert.KernelIdeal.Region4

open Cert.KernelIdeal.Gen Idealize.ShloMosaic Idealize.ShloMosaic.TcCoe Idealize.ShloMosaic.ValueIdx Cert.Spec Cert.Tile

-- Every operation of the body works row by row, so a row of its result is the perceptron on the array's row it was given.
theorem body_row {x0 : Vec Ideal S2000x128 .f32} {y : Mat 100000 128} {p : Fin 2000} {r : Fin 100000}
    (h : ∀ l, x0 (ix2 p l) = y (ix2 r l)) {x1 : Vec Ideal S128x256 .f32} {x2 x3 x4 x5 x7 x8 x9 x10 : Vec Ideal S256 .f32}
    {x6 : Vec Ideal S256x256 .f32} {x11 : Vec Ideal S256x128 .f32} {x12 : Vec Ideal S128 .f32} {q : Fin 128} :
    k4_pay1 (k4_pay2 x0 x1 x2 x3 x4 x5 x6) (k4_pay3 x7) (k4_pay4 x8) (k4_pay5 x9) x10 x11 x12 (ix2 p q)
      = head y x1 (x2, x3) x4 x5 x6 (x7, x8) x9 x10 x11 x12 (ix2 r q) := by
  unfold k4_pay1 k4_pay2 k4_pay3 k4_pay4 k4_pay5 dot_S2000x128_S128x256_S2000x256_1_0_0_1_n_n
    dot_S2000x256_S256x256_S2000x256_1_0_0_1_n_n dot_S2000x256_S256x128_S2000x128_1_0_0_1_n_n
  dsimp only
  rw [matmul_zero, matmul_zero, matmul_zero]
  simp only [mm, at2_apply, addf_apply, mulf_apply, subf_apply, maximumf_apply, truncf_apply, broadcast_apply,
    broadcastTo_1b_ab_apply, shapeCast_a_1a_apply, shapeCast_self, rsqrt_apply, h]
  rfl

theorem index_facts : ∀ t : Fin cfg4.N,
    (win4_0.index t 0 = t ∧ win4_0.index t 1 = 0) ∧ win4_1.index t = 0 ∧ win4_2.index t = 0 ∧ win4_3.index t = 0
    ∧ win4_4.index t = 0 ∧ win4_5.index t = 0 ∧ win4_6.index t = 0 ∧ win4_7.index t = 0 ∧ win4_8.index t = 0
    ∧ win4_9.index t = 0 ∧ win4_10.index t = 0 ∧ win4_11.index t = 0 ∧ win4_12.index t = 0
    ∧ win4_13.index t 0 = t ∧ win4_13.index t 1 = 0 :=
  (by decide +kernel : ∀ t : Fin grid4.N, _)

theorem points : cfg4.N = 50 := by decide

-- Row r of the output array lies in the block of point r / 2000.
theorem covered (i : S100000x128.Idx) :
    ∃ t : Fin cfg4.N, (cfg4.win 13).flush t = true ∧ i ∈ ((cfg4.win 13).blk t).view.set := by
  have ht : (i 0).val / 2000 < cfg4.N := by rw [points]; have : (i 0).val < 100000 := (i 0).isLt; omega
  obtain ⟨-, -, -, -, -, -, -, -, -, -, -, -, -, o0, o1⟩ := index_facts ⟨_, ht⟩
  refine ⟨⟨_, ht⟩, flush4_13 _, ?_⟩
  show i ∈ ((View.whole main_v65).slice (win4_13.rect ⟨(i 0).val / 2000, ht⟩)).set
  rw [View.set_slice_whole, Rect.mem_set_unit]
  intro a
  match a with
  | ⟨0, _⟩ =>
    show win4_13.index _ 0 * 2000 ≤ _ ∧ _ < win4_13.index _ 0 * 2000 + 2000
    rw [o0]; exact ⟨Nat.div_mul_le_self _ _, Nat.lt_div_mul_add (by decide)⟩
  | ⟨1, _⟩ =>
    show win4_13.index _ 1 * 128 ≤ _ ∧ _ < win4_13.index _ 1 * 128 + 128
    rw [o1]; exact ⟨Nat.zero_le _, (i 1).isLt⟩

variable (V : (c : Dev nD) → (b : Ref sig .tc) → Buf (Elt Ideal) ((c : Thread nD τ).loc b))

theorem out_eq (c : Dev nD) :
    ((dat4 V c).arrAt 13 cfg4.N : Mat 100000 128)
      = head (V c main_v38 : Mat 100000 128) (V c main_arg11 : Mat 128 256) ((V c main_v47 : Row 256), (V c main_v51 : Row 256))
          (V c main_arg12 : Row 256) (V c main_arg13 : Row 256) (V c main_arg14 : Mat 256 256)
          ((V c main_v60 : Row 256), (V c main_v64 : Row 256)) (V c main_arg15 : Row 256) (V c main_arg16 : Row 256)
          (V c main_arg17 : Mat 256 128) (V c main_arg18 : Row 128) := by
  refine (dat4 V c).arrAt_eq_of_cover 13 _ (fun t _ => ?_) covered
  obtain ⟨⟨i0, i1⟩, h1, h2, h3, h4, h5, h6, h7, h8, h9, h10, h11, h12, o0, o1⟩ := index_facts t
  show (cfg4.win 13).cut (grid4.coords t) ((dat4 V c).after 13 t) = _
  rw [after4_13]
  unfold out4_13
  rw [View.canon_unit_zero hz2]
  simp only [View.ld_unit_zero (S := ⟨2, _⟩) hz2, View.ld_unit_zero (S := ⟨1, _⟩) hz1]
  rw [show iblk4 V c 1 t = V c main_arg11 from ld_index_zero h1 _ _, show iblk4 V c 2 t = V c main_v47 from ld_index_zero h2 _ _,
    show iblk4 V c 3 t = V c main_v51 from ld_index_zero h3 _ _, show iblk4 V c 4 t = V c main_arg12 from ld_index_zero h4 _ _,
    show iblk4 V c 5 t = V c main_arg13 from ld_index_zero h5 _ _, show iblk4 V c 6 t = V c main_arg14 from ld_index_zero h6 _ _,
    show iblk4 V c 7 t = V c main_v60 from ld_index_zero h7 _ _, show iblk4 V c 8 t = V c main_v64 from ld_index_zero h8 _ _,
    show iblk4 V c 9 t = V c main_arg15 from ld_index_zero h9 _ _, show iblk4 V c 10 t = V c main_arg16 from ld_index_zero h10 _ _,
    show iblk4 V c 11 t = V c main_arg17 from ld_index_zero h11 _ _, show iblk4 V c 12 t = V c main_arg18 from ld_index_zero h12 _ _]
  funext j
  obtain ⟨p, q, rfl⟩ : ∃ (p : Fin 2000) (q : Fin 128), j = ix2 p q := ⟨j 0, j 1, eq_ix2 j⟩
  have ht : t.val < 50 := points ▸ t.isLt
  have hr : t.val * 2000 + p.val < 100000 := by omega
  rw [View.read_apply, show ((cfg4.win 13).blk t).view.emb (ix2 p q) = ix2 (⟨_, hr⟩ : Fin 100000) q from
    Shape.idx_ext₂ ((win4_13.rect_emb_val t _ 0).trans (congrArg (· * 2000 + p.val) o0))
      ((win4_13.rect_emb_val t _ 1).trans ((congrArg (· * 128 + q.val) o1).trans (Nat.zero_add _)))]
  exact body_row fun l => congrArg (V c main_v38) (show (win4_0.rect t).emb (ix2 p l) = ix2 ⟨_, hr⟩ l from Shape.idx_ext₂
    ((win4_0.rect_emb_val t _ 0).trans (congrArg (· * 2000 + p.val) i0))
    ((win4_0.rect_emb_val t _ 1).trans ((congrArg (· * 128 + l.val) i1).trans (Nat.zero_add _))))

end Cert.KernelIdeal.Region4
-- ==== Proof.KernelTail.lean ====
import proofs.«419543_j12017318494892_2_alg».proof.Proof.Gen.KernelIdeal.Frame
import proofs.«419543_j12017318494892_2_alg».proof.Proof.Region2
import proofs.«419543_j12017318494892_2_alg».proof.Proof.Region3
import proofs.«419543_j12017318494892_2_alg».proof.Proof.Region4
import proofs.«419543_j12017318494892_2_alg».proof.Proof.Spec
import proofs.«419543_j12017318494892_2_alg».proof.Proof.KernelKeep
import Idealize.ShloMosaic.Lib.ValueIdx
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

namespace Cert.KernelIdeal.Tail

open Cert.KernelIdeal Cert.KernelIdeal.Gen Cert.KernelIdeal.Keep Idealize.ShloMosaic Idealize.ShloMosaic.TcCoe Idealize.ShloMosaic.ValueIdx Idealize.SL.Sem
open Idealize.ShloMosaic.Pipeline (Dat Cfg Window)
open Cert.Spec

variable (m : (ℓ : Loc nD τ sig) → Buf (Elt Ideal) ℓ) (ρ : Dev nD → PrngReg) (c : Dev nD)

-- Each of the two stretches of eighteen host operations takes the mean and the variance of the slab pair it reads.
theorem stats_run (V : Valuation τ sig (Elt Ideal)) :
    ((StableHlo.after hostOps3 V (Proc.devRef .tc main_v47) : Row 256) = meanK nN (V (Proc.devRef .tc main_v39_0))
      ∧ (StableHlo.after hostOps3 V (Proc.devRef .tc main_v51) : Row 256)
        = varK nN (V (Proc.devRef .tc main_v39_0)) (V (Proc.devRef .tc main_v39_1)))
    ∧ (StableHlo.after hostOps4 V (Proc.devRef .tc main_v60) : Row 256) = meanK nN (V (Proc.devRef .tc main_v52_0))
      ∧ (StableHlo.after hostOps4 V (Proc.devRef .tc main_v64) : Row 256)
        = varK nN (V (Proc.devRef .tc main_v52_0)) (V (Proc.devRef .tc main_v52_1)) := by
  refine ⟨⟨?_, ?_⟩, ?_, ?_⟩
  · after_results
    exact hMean_eq reducesTo_S16x256_S256_d0 (by decide) bcast_S_S256 _ _
  · after_results_simp
    exact hVar_eq reducesTo_S16x256_S256_d0 (by decide) bcast_S_S256 _ _ _
  · after_results
    exact hMean_eq reducesTo_S16x256_S256_d0 (by decide) bcast_S_S256 _ _
  · after_results_simp
    exact hVar_eq reducesTo_S16x256_S256_d0 (by decide) bcast_S_S256 _ _ _

-- The perceptron's argument arrays: no host operation writes them and no launch has one for an output.
def mlp : List (Ref sig .tc) :=
  [main_arg11, main_arg12, main_arg13, main_arg14, main_arg15, main_arg16, main_arg17, main_arg18]

theorem mlp4 : ∀ b ∈ mlp, b ∈ K0 ∧ (∀ w, Pipeline.arrRef spec0 w ≠ b) ∧ b ∈ K1 ∧ b ∈ K11 := by decide
theorem mlp8 : ∀ b ∈ mlp, (∀ w, Pipeline.arrRef spec1 w ≠ b) ∧ b ∈ K2 := by decide
theorem mlp12 : ∀ b ∈ main_v38 :: mlp, (∀ w, Pipeline.arrRef spec2 w = b → (cfg2.win w).isOut = false) ∧ b ∈ K3
    ∧ (∀ w, Pipeline.arrRef spec3 w = b → (cfg3.win w).isOut = false) ∧ b ∈ K4 := by decide

-- So at the third launch's entry each holds what it was launched with, and the later launches find it, and the summed messages, unchanged.
theorem V8_arg (b : Ref sig .tc) (hb : b ∈ mlp) : V8 m ρ c b = m ((c : Thread nD τ).loc b) :=
  (V8_keep m ρ c b (mlp8 b hb)).trans (V4_arg m ρ c b (mlp4 b hb))
theorem V10_mlp (b : Ref sig .tc) (hb : b ∈ main_v38 :: mlp) : V10 m ρ c b = V8 m ρ c b :=
  (keep3.after _ (mlp12 b hb).2.1).trans (W9_keep m ρ c b (mlp12 b hb).1)
theorem V12_mlp (b : Ref sig .tc) (hb : b ∈ main_v38 :: mlp) : V12 m ρ c b = V8 m ρ c b :=
  V12_keep m ρ c b (mlp12 b hb)

-- The first layer's mean and variance pass through the fourth launch, which reads them, and the host after it.
theorem V12_of_V10 (b : Ref sig .tc) (h : (∀ w, Pipeline.arrRef spec3 w = b → (cfg3.win w).isOut = false) ∧ b ∈ K4) :
    V12 m ρ c b = V10 m ρ c b :=
  (keep4.after _ h.2).trans (W11_keep m ρ c b h.1)

theorem V10_arg (b : Ref sig .tc) (hb : b ∈ mlp) : V10 m ρ c b = m ((c : Thread nD τ).loc b) :=
  (V10_mlp m ρ c b (List.mem_cons_of_mem _ hb)).trans (V8_arg m ρ c b hb)
theorem V12_arg (b : Ref sig .tc) (hb : b ∈ mlp) : V12 m ρ c b = m ((c : Thread nD τ).loc b) :=
  (V12_mlp m ρ c b (List.mem_cons_of_mem _ hb)).trans (V8_arg m ρ c b hb)

-- The two layers' pre-activations, from the summed messages at the third launch's entry and the launch's arguments.
abbrev X1 : Mat 100000 256 := mm (V8 m ρ c main_v38) (m ((c : Thread nD τ).loc main_arg11))
abbrev X2 : Mat 100000 256 :=
  pre2 (V8 m ρ c main_v38) (m ((c : Thread nD τ).loc main_arg11)) (statKN (X1 m ρ c)) (m ((c : Thread nD τ).loc main_arg12))
    (m ((c : Thread nD τ).loc main_arg13)) (m ((c : Thread nD τ).loc main_arg14))

-- The first layer's mean and variance, as the fourth launch reads them.
theorem stat1 : (V10 m ρ c main_v47 : Row 256) = (statKN (X1 m ρ c)).1 ∧ (V10 m ρ c main_v51 : Row 256) = (statKN (X1 m ρ c)).2 := by
  have hX : mm (V8 m ρ c main_v38 : Mat 100000 128) (V8 m ρ c main_arg11 : Mat 128 256) = X1 m ρ c := by
    rewrite [V8_arg m ρ c main_arg11 (by decide)]
    rfl
  exact ⟨(stats_run (W9 m ρ c)).1.1.trans (congrArg (meanK nN) ((W9_arr m ρ c 2).trans
      ((Region2.sum_eq (V8 m ρ) c).trans (congrArg (slabSum 25 2000 hrowN) hX)))),
    (stats_run (W9 m ρ c)).1.2.trans (congrArg₂ (varK nN)
      ((W9_arr m ρ c 2).trans ((Region2.sum_eq (V8 m ρ) c).trans (congrArg (slabSum 25 2000 hrowN) hX)))
      ((W9_arr m ρ c 3).trans ((Region2.sumsq_eq (V8 m ρ) c).trans (congrArg (fun X => slabSum 25 2000 hrowN (sq X)) hX))))⟩

-- The second layer's, as the last launch reads them.
theorem stat2 : (V12 m ρ c main_v60 : Row 256) = (statKN (X2 m ρ c)).1 ∧ (V12 m ρ c main_v64 : Row 256) = (statKN (X2 m ρ c)).2 := by
  have hX : pre2 (V10 m ρ c main_v38) (V10 m ρ c main_arg11) (V10 m ρ c main_v47, V10 m ρ c main_v51) (V10 m ρ c main_arg12)
      (V10 m ρ c main_arg13) (V10 m ρ c main_arg14) = X2 m ρ c := by
    rewrite [(stat1 m ρ c).1, (stat1 m ρ c).2, V10_mlp m ρ c main_v38 (by decide), V10_arg m ρ c main_arg11 (by decide),
      V10_arg m ρ c main_arg12 (by decide), V10_arg m ρ c main_arg13 (by decide), V10_arg m ρ c main_arg14 (by decide)]
    rfl
  exact ⟨(stats_run (W11 m ρ c)).2.1.trans (congrArg (meanK nN) ((W11_arr m ρ c 7).trans
      ((Region3.sum_eq (V10 m ρ) c).trans (congrArg (slabSum 25 2000 hrowN) hX)))),
    (stats_run (W11 m ρ c)).2.2.trans (congrArg₂ (varK nN)
      ((W11_arr m ρ c 7).trans ((Region3.sum_eq (V10 m ρ) c).trans (congrArg (slabSum 25 2000 hrowN) hX)))
      ((W11_arr m ρ c 8).trans ((Region3.sumsq_eq (V10 m ρ) c).trans (congrArg (fun X => slabSum 25 2000 hrowN (sq X)) hX))))⟩

-- The perceptron with each layer's statistics taken the two-core way from that layer's own pre-activation.
def tailK (y : Mat 100000 128) (Wm1 : Mat 128 256) (g1 b1 : Row 256) (Wm2 : Mat 256 256) (g2 b2 : Row 256) (Wm3 : Mat 256 128)
    (bm3 : Row 128) : Mat 100000 128 :=
  head y Wm1 (statKN (mm y Wm1)) g1 b1 Wm2 (statKN (pre2 y Wm1 (statKN (mm y Wm1)) g1 b1 Wm2)) g2 b2 Wm3 bm3

-- The result array after the last launch.
theorem out_eq :
    (W13 m ρ c (Proc.devRef .tc main_v65) : Mat 100000 128)
      = tailK (V8 m ρ c main_v38) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) := by
  refine (W13_arr m ρ c 13).trans ((Region4.out_eq (V12 m ρ) c).trans ?_)
  rewrite [(stat2 m ρ c).1, (stat2 m ρ c).2, V12_of_V10 m ρ c main_v47 (by decide), V12_of_V10 m ρ c main_v51 (by decide),
    (stat1 m ρ c).1, (stat1 m ρ c).2, V12_mlp m ρ c main_v38 (by decide), V12_arg m ρ c main_arg11 (by decide),
    V12_arg m ρ c main_arg12 (by decide), V12_arg m ρ c main_arg13 (by decide), V12_arg m ρ c main_arg14 (by decide),
    V12_arg m ρ c main_arg15 (by decide), V12_arg m ρ c main_arg16 (by decide), V12_arg m ρ c main_arg17 (by decide),
    V12_arg m ρ c main_arg18 (by decide)]
  rfl

end Cert.KernelIdeal.Tail

end
-- ==== Proof.KernelValue.lean ====
import proofs.«419543_j12017318494892_2_alg».proof.Proof.KernelGather
import proofs.«419543_j12017318494892_2_alg».proof.Proof.KernelScatter
import proofs.«419543_j12017318494892_2_alg».proof.Proof.KernelTail

set_option maxRecDepth 16384

noncomputable section

namespace Cert.KernelIdeal.Value

open Cert.KernelIdeal Cert.KernelIdeal.Gen Cert.KernelIdeal.Keep Idealize.ShloMosaic Idealize.ShloMosaic.TcCoe Idealize.ShloMosaic.ValueIdx Idealize.SL.Sem
open Cert.Spec

variable (m : (ℓ : Loc nD τ sig) → Buf (Elt Ideal) ℓ) (ρ : Dev nD → PrngReg) (c : Dev nD)

-- The three stretches of the run joined: every buffer read along the way is a function of the launch's argument arrays.
theorem result_eq (hr : InRange (m ((c : Thread nD τ).loc main_arg3) : IVec (⟨2, ![2, 640000]⟩ : Shape) 32)) :
    (W13 m ρ c (Proc.devRef .tc main_v65) : Mat 100000 128)
      = pipe statKE statKN statKN
          (scat scatter_S100000x128_S640000x1_S640000x128_1_0_0_1 (colIdx (m ((c : Thread nD τ).loc main_arg3)) 1))
          (wrapIdx (m ((c : Thread nD τ).loc main_arg3)) 0) (wrapIdx (m ((c : Thread nD τ).loc main_arg3)) 1)
          (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) := by
  rw [Tail.out_eq m ρ c, Scatter.y_eq m ρ c]
  unfold Scatter.M4
  rw [(Gather.gs_eq m ρ c hr).1, (Gather.gs_eq m ρ c hr).2, V4_arg m ρ c main_arg2 (by decide), V4_arg m ρ c main_arg1 (by decide),
    V4_arg m ρ c main_arg7 (by decide), V4_arg m ρ c main_arg8 (by decide), V4_arg m ρ c main_arg6 (by decide),
    show (fun i : (⟨2, ![640000, 1]⟩ : Shape).Idx =>
        (V4 m ρ c main_v3 : IVec (⟨1, ![640000]⟩ : Shape) 32) (ix1 ⟨(i 0).val, idx2_lt0 i⟩))
      = colIdx (m ((c : Thread nD τ).loc main_arg3)) 1 from funext fun i => Gather.dst_eq m ρ c _]
  rfl

end Cert.KernelIdeal.Value

end
-- ==== Proof.Algebra.lean ====
import proofs.«419543_j12017318494892_2_alg».proof.Proof.Spec
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

theorem z32_eq : z32 = 0 := by simp [z32, Ideal.ofBits, Ideal.ieee]
theorem eight_eq : eight = ((8 : ℝ) : EReal) := by
  simp [eight, Ideal.ofBits, Ideal.ieee, -EReal.coe_mul]; norm_num
theorem nE_eq : nE = ((640000 : ℝ) : EReal) := by
  simp [nE, Ideal.ofBits, Ideal.ieee, -EReal.coe_mul]; norm_num
theorem nN_eq : nN = ((100000 : ℝ) : EReal) := by
  simp [nN, Ideal.ofBits, Ideal.ieee, -EReal.coe_mul]; norm_num

theorem eps_eq : ∃ e : ℝ, 0 < e ∧ eps = (e : EReal) := by
  simp [eps, Ideal.ofBits, Ideal.ieee, -EReal.coe_mul]

theorem exists_ix1 {n : Nat} (i : (⟨1, ![n]⟩ : Shape).Idx) : ∃ j : Fin n, i = ix1 j := ⟨_, eq_ix1 i⟩
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩
theorem real_sub {a b : EReal} (ha : ∃ r : ℝ, a = r) (hb : ∃ r : ℝ, b = r) : ∃ r : ℝ, a - b = r := by
  obtain ⟨x, rfl⟩ := ha; obtain ⟨y, rfl⟩ := hb; exact ⟨x - y, (EReal.coe_sub x y).symm⟩
theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩
theorem real_max {a b : EReal} (ha : ∃ r : ℝ, a = r) (hb : ∃ r : ℝ, b = r) : ∃ r : ℝ, max a b = r := by
  rcases max_choice a b with h | h <;> rw [h] <;> assumption
theorem real_sum {ι : Type*} (s : Finset ι) (f : ι → EReal) (h : ∀ i ∈ s, ∃ r : ℝ, f i = (r : EReal)) :
    ∃ r : ℝ, ∑ i ∈ s, f i = (r : EReal) := by
  choose! g hg using h
  exact ⟨∑ i ∈ s, g i, by rw [coe_sum]; exact Finset.sum_congr rfl hg⟩

theorem real_div {a c : EReal} {y : ℝ} (hy : y ≠ 0) (hc : c = y) (ha : ∃ r : ℝ, a = r) :
    ∃ r : ℝ, Ideal.div a c = r := by
  obtain ⟨x, rfl⟩ := ha
  exact ⟨x * (1 / y), by rw [hc, Ideal.div_coe hy, EReal.coe_mul]⟩

theorem real_rsqrt {v : ℝ} (hv : 0 < v) : ∃ r : ℝ, Ideal.rsqrt (v : EReal) = r :=
  ⟨(Real.sqrt v)⁻¹, by rw [Ideal.rsqrt_coe, if_neg (not_lt.mpr hv.le), if_neg hv.ne']⟩

theorem isReal_at2 {n k : Nat} {f : Fin n → Fin k → EReal} (h : ∀ a b, ∃ r : ℝ, f a b = (r : EReal)) :
    IsReal (at2 f) := fun _ => h _ _
theorem isReal_at1 {k : Nat} {f : Fin k → EReal} (h : ∀ a, ∃ r : ℝ, f a = (r : EReal)) : IsReal (at1 f) :=
  fun _ => h _

theorem isReal_mm {n k p : Nat} {X : Mat n k} {W : Mat k p} (hX : IsReal X) (hW : IsReal W) : IsReal (mm X W) :=
  isReal_at2 fun _ _ => real_sum _ _ fun _ _ => real_mul (hX _) (hW _)
theorem isReal_gatherRows {N d E : Nat} (hN : 0 < N) {T : Mat N d} (hT : IsReal T) (idx : IdxCol E) :
    IsReal (gatherRows hN T idx) := isReal_at2 fun _ _ => hT _
theorem isReal_msg {E : Nat} {gs gd : Mat E 128} {ea : Mat E 16} {er : Mat E 128} {We : Mat 16 128} {be : Row 128}
    {W3 : Mat 128 128} (hgs : IsReal gs) (hgd : IsReal gd) (hea : IsReal ea) (her : IsReal er) (hWe : IsReal We)
    (hbe : IsReal be) (hW3 : IsReal W3) : IsReal (msg gs gd ea er We be W3) :=
  isReal_at2 fun _ _ =>
    real_add (real_add (real_add (hgs _) (hgd _)) (real_add (isReal_mm hea hWe _) (hbe _))) (isReal_mm her hW3 _)
theorem real_z32 : ∃ r : ℝ, z32 = r := ⟨0, z32_eq⟩

theorem isReal_meanR {n d : Nat} {nhat : EReal} {N : ℝ} (hN : N ≠ 0) (hnhat : nhat = N) {X : Mat n d} (hX : IsReal X) :
    IsReal (meanR nhat X) :=
  isReal_at1 fun _ => real_div hN hnhat (real_add real_z32 (real_sum _ _ fun _ _ => hX _))
theorem isReal_varR {n d : Nat} {nhat : EReal} {N : ℝ} (hN : N ≠ 0) (hnhat : nhat = N) {X : Mat n d} (hX : IsReal X) :
    IsReal (varR nhat X) :=
  isReal_at1 fun _ => real_div hN hnhat (real_add real_z32 (real_sum _ _ fun _ _ =>
    real_mul (real_sub (hX _) (isReal_meanR hN hnhat hX _)) (real_sub (hX _) (isReal_meanR hN hnhat hX _))))

theorem varR_nonneg {n d : Nat} {nhat : EReal} {N : ℝ} (hN : 0 < N) (hnhat : nhat = N) {X : Mat n d} (hX : IsReal X)
    (i : (⟨1, ![d]⟩ : Shape).Idx) : 0 ≤ varR nhat X i := by
  obtain ⟨j, rfl⟩ := exists_ix1 i
  obtain ⟨m, hm⟩ := isReal_meanR hN.ne' hnhat hX (ix1 j)
  choose x hx using hX
  show 0 ≤ Ideal.div (z32 + ∑ a : Fin n, (X (ix2 a j) - meanR nhat X (ix1 j)) * (X (ix2 a j) - meanR nhat X (ix1 j))) nhat
  simp only [hx, hm, ← EReal.coe_sub, ← EReal.coe_mul, ← coe_sum]
  rw [z32_eq, zero_add, hnhat, Ideal.div_coe hN.ne', ← EReal.coe_mul]
  exact EReal.coe_nonneg.mpr (mul_nonneg (Finset.sum_nonneg fun _ _ => mul_self_nonneg _) (by positivity))

theorem isReal_bnrelu {n d : Nat} {X : Mat n d} {mu var g b : Row d} (hX : IsReal X) (hmu : IsReal mu)
    (hvar : IsReal var) (hvar0 : ∀ i, 0 ≤ var i) (hg : IsReal g) (hb : IsReal b) : IsReal (bnrelu X mu var g b) := by
  refine isReal_at2 fun a j => ?_
  obtain ⟨e, he, hee⟩ := eps_eq
  obtain ⟨v, hv⟩ := hvar (ix1 j)
  have hv0 : 0 ≤ v := by have h := hvar0 (ix1 j); rw [hv] at h; exact EReal.coe_nonneg.mp h
  have hr : ∃ r : ℝ, Ideal.rsqrt (var (ix1 j) + eps) = r := by
    rw [hv, hee, ← EReal.coe_add]; exact real_rsqrt (by linarith)
  exact real_max (real_add (real_mul (real_mul (hg _) (real_sub (hX _) (hmu _))) hr) (hb _)) real_z32

theorem sum_fin_blocks {M : Type*} [AddCommMonoid M] {n : ℕ} (m k : ℕ) (hn : m * k = n) (g : ℕ → M) :
    ∑ a : Fin n, g a.val = ∑ p : Fin m, ∑ q : Fin k, g (p.val * k + q.val) := by
  subst hn
  rw [← finProdFinEquiv.sum_comp, Fintype.sum_prod_type]
  refine Finset.sum_congr rfl fun p _ => Finset.sum_congr rfl fun q _ => congrArg g ?_
  simp [finProdFinEquiv, Nat.mul_comm, Nat.add_comm]

theorem sum_slab_rows {n : ℕ} (steps tile : ℕ) (hn : 2 * steps * tile = n) (g : ℕ → ℝ) :
    ∑ r : Fin 16, ∑ i : Fin steps, ∑ q : Fin tile, g ((r.val / 8 * steps + i.val) * tile + q.val)
      = 8 * ∑ a : Fin n, g a.val := by
  rw [sum_fin_blocks (2 * steps) tile hn g,
    sum_fin_blocks 2 steps rfl (fun p => ∑ q : Fin tile, g (p * tile + q.val)),
    sum_fin_blocks 2 8 (by norm_num : 2 * 8 = 16)
      (fun r => ∑ i : Fin steps, ∑ q : Fin tile, g ((r / 8 * steps + i.val) * tile + q.val)),
    Finset.mul_sum]
  refine Finset.sum_congr rfl fun h _ => ?_
  have hdiv : ∀ e : Fin 8, (h.val * 8 + e.val) / 8 = h.val := fun e => by have := e.isLt; omega
  simp only [hdiv, Finset.sum_const, Finset.card_univ, Fintype.card_fin, nsmul_eq_mul]
  norm_num

theorem sum_sq_dev {n : ℕ} (x : Fin n → ℝ) (m : ℝ) :
    ∑ a, (x a - m) * (x a - m) = (∑ a, x a * x a) - 2 * m * (∑ a, x a) + n * (m * m) := by
  have h : ∀ a, (x a - m) * (x a - m) = x a * x a - 2 * m * x a + m * m := fun a => by ring
  simp only [h, Finset.sum_add_distrib, Finset.sum_sub_distrib, ← Finset.mul_sum, Finset.sum_const,
    Finset.card_univ, Fintype.card_fin, nsmul_eq_mul]
  ring

section Stat
variable {n d steps tile : Nat}
  (hrow : ∀ (r : Fin 16) (i : Fin steps) (q : Fin tile), (r.val / 8 * steps + i.val) * tile + q.val < n)

theorem exists_col {X : Mat n d} (hX : IsReal X) (j : Fin d) :
    ∃ g : ℕ → ℝ, ∀ a : Fin n, X (ix2 a j) = (g a.val : EReal) := by
  choose x hx using hX
  refine ⟨fun a => if h : a < n then x (ix2 ⟨a, h⟩ j) else 0, fun a => ?_⟩
  show X (ix2 a j) = ((if h : a.val < n then x (ix2 ⟨a.val, h⟩ j) else 0 : ℝ) : EReal)
  rw [hx, dif_pos a.isLt]

theorem meanK_col (hn : 2 * steps * tile = n) {nhat : EReal} {N : ℝ} (hN : N ≠ 0) (hnhat : nhat = N)
    (X : Mat n d) (j : Fin d) (g : ℕ → ℝ) (hg : ∀ a : Fin n, X (ix2 a j) = (g a.val : EReal)) :
    meanK nhat (slabSum steps tile hrow X) (ix1 j) = (((∑ a : Fin n, g a.val) / N : ℝ) : EReal) := by
  have hs : ∀ r : Fin 16, slabSum steps tile hrow X (ix2 r j)
      = ((∑ i : Fin steps, ∑ q : Fin tile, g ((r.val / 8 * steps + i.val) * tile + q.val) : ℝ) : EReal) := by
    intro r
    show ∑ i : Fin steps, ∑ q : Fin tile, X (ix2 ⟨_, hrow r i q⟩ j) = _
    simp only [hg, coe_sum]
  show Ideal.div (Ideal.div (z32 + ∑ r : Fin 16, slabSum steps tile hrow X (ix2 r j)) eight) nhat = _
  simp only [hs, ← coe_sum]
  rw [sum_slab_rows steps tile hn g, z32_eq, zero_add, eight_eq, hnhat, Ideal.div_coe hN,
    Ideal.div_coe (by norm_num : (8 : ℝ) ≠ 0), ← EReal.coe_mul, ← EReal.coe_mul]
  congr 1; field_simp

theorem meanR_col {nhat : EReal} {N : ℝ} (hN : N ≠ 0) (hnhat : nhat = N)
    (X : Mat n d) (j : Fin d) (g : ℕ → ℝ) (hg : ∀ a : Fin n, X (ix2 a j) = (g a.val : EReal)) :
    meanR nhat X (ix1 j) = (((∑ a : Fin n, g a.val) / N : ℝ) : EReal) := by
  show Ideal.div (z32 + ∑ a : Fin n, X (ix2 a j)) nhat = _
  simp only [hg, ← coe_sum]
  rw [z32_eq, zero_add, hnhat, Ideal.div_coe hN, ← EReal.coe_mul]
  congr 1; field_simp

theorem meanK_eq_meanR (hn : 2 * steps * tile = n) {nhat : EReal} {N : ℝ} (hN : N ≠ 0) (hnhat : nhat = N)
    (X : Mat n d) (hX : IsReal X) : meanK nhat (slabSum steps tile hrow X) = meanR nhat X := by
  funext i
  obtain ⟨j, rfl⟩ := exists_ix1 i
  obtain ⟨g, hg⟩ := exists_col hX j
  rw [meanK_col hrow hn hN hnhat X j g hg, meanR_col hN hnhat X j g hg]

theorem varK_eq_varR (hn : 2 * steps * tile = n) {nhat : EReal} {N : ℝ} (hN : N ≠ 0) (hNn : N = (n : ℝ))
    (hnhat : nhat = N) (X : Mat n d) (hX : IsReal X) :
    varK nhat (slabSum steps tile hrow X) (slabSum steps tile hrow (sq X)) = varR nhat X := by
  funext i
  obtain ⟨j, rfl⟩ := exists_ix1 i
  obtain ⟨g, hg⟩ := exists_col hX j
  have hg2 : ∀ a : Fin n, sq X (ix2 a j) = ((g a.val * g a.val : ℝ) : EReal) := fun a => by
    show X (ix2 a j) * X (ix2 a j) = _
    rw [hg, EReal.coe_mul]
  show meanK nhat (slabSum steps tile hrow (sq X)) (ix1 j)
      - meanK nhat (slabSum steps tile hrow X) (ix1 j) * meanK nhat (slabSum steps tile hrow X) (ix1 j)
    = Ideal.div (z32 + ∑ a : Fin n, (X (ix2 a j) - meanR nhat X (ix1 j)) * (X (ix2 a j) - meanR nhat X (ix1 j))) nhat
  rw [meanK_col hrow hn hN hnhat (sq X) j (fun a => g a * g a) hg2, meanK_col hrow hn hN hnhat X j g hg,
    meanR_col hN hnhat X j g hg]
  simp only [hg, ← EReal.coe_sub, ← EReal.coe_mul, ← coe_sum]
  rw [z32_eq, zero_add, hnhat, Ideal.div_coe hN, ← EReal.coe_mul, sum_sq_dev (fun a : Fin n => g a.val), ← hNn]
  congr 1; field_simp; ring

end Stat

theorem nE_ne : (640000 : ℝ) ≠ 0 := by norm_num
theorem nN_ne : (100000 : ℝ) ≠ 0 := by norm_num

theorem statKE_eq {d : Nat} (X : Mat 640000 d) (hX : IsReal X) : statKE X = statRE X := by
  unfold statKE statRE
  rw [meanK_eq_meanR hrowE (by norm_num) nE_ne nE_eq X hX, varK_eq_varR hrowE (by norm_num) nE_ne (by norm_num) nE_eq X hX]

theorem statKN_eq {d : Nat} (X : Mat 100000 d) (hX : IsReal X) : statKN X = statRN X := by
  unfold statKN statRN
  rw [meanK_eq_meanR hrowN (by norm_num) nN_ne nN_eq X hX, varK_eq_varR hrowN (by norm_num) nN_ne (by norm_num) nN_eq X hX]

theorem isReal_statRE {d : Nat} {X : Mat 640000 d} (hX : IsReal X) :
    IsReal (statRE X).1 ∧ IsReal (statRE X).2 ∧ ∀ i, 0 ≤ (statRE X).2 i :=
  ⟨isReal_meanR nE_ne nE_eq hX, isReal_varR nE_ne nE_eq hX, varR_nonneg (by norm_num) nE_eq hX⟩
theorem isReal_statRN {d : Nat} {X : Mat 100000 d} (hX : IsReal X) :
    IsReal (statRN X).1 ∧ IsReal (statRN X).2 ∧ ∀ i, 0 ≤ (statRN X).2 i :=
  ⟨isReal_meanR nN_ne nN_eq hX, isReal_varR nN_ne nN_eq hX, varR_nonneg (by norm_num) nN_eq hX⟩

theorem isReal_bnrelu_statRE {d : Nat} {X : Mat 640000 d} {g b : Row d} (hX : IsReal X) (hg : IsReal g) (hb : IsReal b) :
    IsReal (bnrelu X (statRE X).1 (statRE X).2 g b) :=
  isReal_bnrelu hX (isReal_statRE hX).1 (isReal_statRE hX).2.1 (isReal_statRE hX).2.2 hg hb
theorem isReal_bnrelu_statRN {d : Nat} {X : Mat 100000 d} {g b : Row d} (hX : IsReal X) (hg : IsReal g) (hb : IsReal b) :
    IsReal (bnrelu X (statRN X).1 (statRN X).2 g b) :=
  isReal_bnrelu hX (isReal_statRN hX).1 (isReal_statRN hX).2.1 (isReal_statRN hX).2.2 hg hb

theorem pipe_K_eq_R (sc : Mat 640000 128 → Mat 100000 128) (hsc : ∀ U, IsReal U → IsReal (sc U)) (iS iD : IdxCol 640000)
    (node : Mat 100000 128) (er : Mat 640000 128) (ea : Mat 640000 16) (W1 W2 W3 : Mat 128 128) (We : Mat 16 128)
    (be bng bnb : Row 128) (Wm1 : Mat 128 256) (g1 b1 : Row 256) (Wm2 : Mat 256 256) (g2 b2 : Row 256)
    (Wm3 : Mat 256 128) (bm3 : Row 128)
    (hnode : IsReal node) (her : IsReal er) (hea : IsReal ea) (hW1 : IsReal W1) (hW2 : IsReal W2) (hW3 : IsReal W3)
    (hWe : IsReal We) (hbe : IsReal be) (hbng : IsReal bng) (hbnb : IsReal bnb) (hWm1 : IsReal Wm1) (hg1 : IsReal g1)
    (hb1 : IsReal b1) (hWm2 : IsReal Wm2) (hg2 : IsReal g2) (hb2 : IsReal b2) (hWm3 : IsReal Wm3) (hbm3 : IsReal bm3) :
    pipe statKE statKN statKN sc iS iD node er ea W1 W2 W3 We be bng bnb Wm1 g1 b1 Wm2 g2 b2 Wm3 bm3
      = pipe statRE statRN statRN sc iS iD node er ea W1 W2 W3 We be bng bnb Wm1 g1 b1 Wm2 g2 b2 Wm3 bm3 := by
  have hM : IsReal (msg (gatherRows (by decide) (mm node W1) iS) (gatherRows (by decide) (mm node W2) iD) ea er We be W3) :=
    isReal_msg (isReal_gatherRows _ (isReal_mm hnode hW1) iS) (isReal_gatherRows _ (isReal_mm hnode hW2) iD) hea her hWe
      hbe hW3
  unfold pipe
  dsimp only
  rw [statKE_eq _ hM]
  generalize msg (gatherRows _ (mm node W1) iS) (gatherRows _ (mm node W2) iD) ea er We be W3 = M at hM ⊢
  have hy : IsReal (sc (bnrelu M (statRE M).1 (statRE M).2 bng bnb)) := hsc _ (isReal_bnrelu_statRE hM hbng hbnb)
  generalize sc (bnrelu M (statRE M).1 (statRE M).2 bng bnb) = y at hy ⊢
  have hP : IsReal (mm y Wm1) := isReal_mm hy hWm1
  rw [statKN_eq _ hP]
  have hQ : IsReal (pre2 y Wm1 (statRN (mm y Wm1)) g1 b1 Wm2) := isReal_mm (isReal_bnrelu_statRN hP hg1 hb1) hWm2
  rw [statKN_eq _ hQ]

theorem isReal_hostScatterAdd {s si su : Shape} (d : ScatterDims s si su) {w : Nat} (x : s.Idx → EReal) (idx : IVec si w)
    (upd : su.Idx → EReal) (hx : IsReal x) (hu : IsReal upd) : IsReal (Ideal.hostScatterAdd d x idx upd) :=
  fun i => real_add (hx i) (real_sum _ _ fun j _ => hu j)

theorem isReal_scat
    (D : ScatterDims (⟨2, ![100000, 128]⟩ : Shape) (⟨2, ![640000, 1]⟩ : Shape) (⟨2, ![640000, 128]⟩ : Shape))
    (idx : IdxCol 640000) (U : Mat 640000 128) (hU : IsReal U) : IsReal (scat D idx U) :=
  isReal_hostScatterAdd D (fun _ => z32) idx U (fun _ => real_z32) hU

end Cert.Spec

end
-- ==== Proof.PreFacts.lean ====
import proofs.«419543_j12017318494892_2_alg».proof.Pre_finite_inputs
import proofs.«419543_j12017318494892_2_alg».proof.Proof.Gen.Pre_finite_inputs
import proofs.«419543_j12017318494892_2_alg».proof.Proof.Spec
import Idealize.ShloMosaic.Lib.ReduceAll
import Idealize.ShloMosaic.Lib.StableHlo.Predicate
import Idealize.ShloMosaic.Lib.ValueIdx
import Idealize.ShloMosaic.PureOps.Ideal

namespace Cert.PreFacts

open Idealize.ShloMosaic Idealize.ShloMosaic.ValueIdx Cert.Spec Cert.Pre_finite_inputs

instance scalarIdx_subsingleton : Subsingleton S_.Idx := ⟨fun a b => funext fun d => d.elim0⟩

theorem bound_eq_top : Ideal.ofBits .f32 0x7F800000#32 = (⊤ : EReal) := by
  simp [Ideal.ofBits, Ideal.ieee]

/-- If `max x (-x)` is below `⊤` then `x` is neither infinity. -/
theorem real_of_abs_lt_top (x : EReal) (h : max x (-x) < ⊤) : ∃ r : ℝ, x = (r : EReal) := by
  induction x using EReal.rec with
  | bot => simp at h
  | top => simp at h
  | coe r => exact ⟨r, rfl⟩

theorem real_of_abs_lt_bound (x : EReal)
    (h : Ideal.cmp .olt (max x (-x)) (Ideal.ofBits .f32 0x7F800000#32) = 1#1) : ∃ r : ℝ, x = (r : EReal) := by
  rw [bound_eq_top] at h
  refine real_of_abs_lt_top x ?_
  simpa [Ideal.cmp, StableHlo.Predicate.ofBool_eq_one_iff] using h

theorem isReal_of_all_abs_lt {s : Shape} {axes : List (Fin s.rank)} (X : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi (cmpf .olt (Host.absf X) (broadcastInDim s ![] hb (constant S_ .f32 0x7F800000#32)))
      init hr h0 j = 1#1) : IsReal X := by
  intro i
  exact real_of_abs_lt_bound (X i) (Host.reduce_andi_all _ init hr h0 j e i)

theorem andi_apply {s : Shape} {w : Nat} (x y : IVec s w) (j : s.Idx) : andi x y j = IntOp.andi (x j) (y j) := rfl

theorem inRange_of_all_between (ei : IVec S2x640000 32)
    (hb : S_.BroadcastsInDim S2x640000 (![] : Fin 0 → Fin S2x640000.rank))
    (hr : S2x640000.ReducesTo [0, 1] S_) (h0 : 0 < S_.numel) (init : IVec S_ 1) (j : S_.Idx)
    (e : Host.reduce IntOp.andi
      (andi (cmpi .sge ei (broadcastInDim S2x640000 ![] hb (constantI S_ 32 0#32)))
        (cmpi .slt ei (broadcastInDim S2x640000 ![] hb (constantI S_ 32 100000#32))))
      init hr h0 j = 1#1) : InRange ei := by
  intro i
  have hi := Host.reduce_andi_all _ init hr h0 j e i
  rw [andi_apply, IntOp.andi_eq_one] at hi
  obtain ⟨hge, hlt⟩ := hi
  have hge' : IntOp.cmpi .sge (ei i) 0#32 = 1#1 := hge
  have hlt' : IntOp.cmpi .slt (ei i) 100000#32 = 1#1 := hlt
  rw [IntOp.cmpi_sge] at hge'
  rw [IntOp.cmpi_slt] at hlt'
  have z : (0#32 : BitVec 32).toInt = 0 := by decide
  have c : (100000#32 : BitVec 32).toInt = 100000 := by decide
  rw [z] at hge'
  rw [c] at hlt'
  exact ⟨hge', hlt'⟩

/-- The precondition decoded: every float array has real entries and every edge index names a node. -/
theorem of_pre (a0 : Mat 100000 128) (a1 : Mat 640000 128) (a2 : Mat 640000 16) (a3 : IVec (⟨2, ![2, 640000]⟩ : Shape) 32)
    (a4 a5 a6 : Mat 128 128) (a7 : Mat 16 128) (a8 a9 a10 : Row 128) (a11 : Mat 128 256) (a12 a13 : Row 256)
    (a14 : Mat 256 256) (a15 a16 : Row 256) (a17 : Mat 256 128) (a18 : Row 128)
    (h : Cert.Pre_finite_inputs.fn (F := Ideal) a0 a1 a2 a3 a4 a5 a6 a7 a8 a9 a10 a11 a12 a13 a14 a15 a16 a17 a18 = fun _ => 1#1) :
    IsReal a0 ∧ IsReal a1 ∧ IsReal a2 ∧ InRange a3 ∧ IsReal a4 ∧ IsReal a5 ∧ IsReal a6 ∧ IsReal a7 ∧ IsReal a8 ∧ IsReal a9 ∧
      IsReal a10 ∧ IsReal a11 ∧ IsReal a12 ∧ IsReal a13 ∧ IsReal a14 ∧ IsReal a15 ∧ IsReal a16 ∧ IsReal a17 ∧ IsReal a18 := by
  have e := congrFun h ValueIdx.ix0
  dsimp only [fn, fn_part1, fn_part2, fn_part3, fn_part4, fn_part5] at e
  simp only [andi_apply, IntOp.andi_eq_one] at e
  obtain ⟨⟨⟨⟨⟨⟨⟨⟨⟨⟨⟨⟨⟨⟨⟨⟨⟨⟨e0, e1⟩, e2⟩, e4⟩, e5⟩, e6⟩, e7⟩, e8⟩, e9⟩, e10⟩, e11⟩, e12⟩, e13⟩, e14⟩, e15⟩, e16⟩, e17⟩, e18⟩, e3⟩ := e
  exact ⟨isReal_of_all_abs_lt a0 _ _ _ _ _ e0, isReal_of_all_abs_lt a1 _ _ _ _ _ e1, isReal_of_all_abs_lt a2 _ _ _ _ _ e2,
    inRange_of_all_between a3 _ _ _ _ _ e3, isReal_of_all_abs_lt a4 _ _ _ _ _ e4, isReal_of_all_abs_lt a5 _ _ _ _ _ e5,
    isReal_of_all_abs_lt a6 _ _ _ _ _ e6, isReal_of_all_abs_lt a7 _ _ _ _ _ e7, isReal_of_all_abs_lt a8 _ _ _ _ _ e8,
    isReal_of_all_abs_lt a9 _ _ _ _ _ e9, isReal_of_all_abs_lt a10 _ _ _ _ _ e10, isReal_of_all_abs_lt a11 _ _ _ _ _ e11,
    isReal_of_all_abs_lt a12 _ _ _ _ _ e12, isReal_of_all_abs_lt a13 _ _ _ _ _ e13, isReal_of_all_abs_lt a14 _ _ _ _ _ e14,
    isReal_of_all_abs_lt a15 _ _ _ _ _ e15, isReal_of_all_abs_lt a16 _ _ _ _ _ e16, isReal_of_all_abs_lt a17 _ _ _ _ _ e17,
    isReal_of_all_abs_lt a18 _ _ _ _ _ e18⟩

end Cert.PreFacts
-- ==== Proof.RefOps.lean ====
import proofs.«419543_j12017318494892_2_alg».proof.Proof.Gen.ReferenceIdeal
import Idealize.ShloMosaic.Lib.StableHlo.Run

set_option synthInstance.maxSize 4096

noncomputable section

namespace Cert.ReferenceIdeal.Run

open Cert.ReferenceIdeal Cert.ReferenceIdeal.Gen Idealize.ShloMosaic Idealize.ShloMosaic.TcCoe Idealize.SL.Sem
  Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

abbrev opsA : List (HloOp τ sig (Elt F)) :=
  [ StableHlo.unary main_arg3 main_v0 ((extractStridedSlice S1x640000 ![0, 0] · slices_S2x640000_S1x640000_0_0)),
    StableHlo.reshape main_v0 main_v1 rfl shapeCasts_S1x640000_S640000,
    StableHlo.unary main_arg3 main_v2 ((extractStridedSlice S1x640000 ![1, 0] · slices_S2x640000_S1x640000_1_0)),
    StableHlo.reshape main_v2 main_v3 rfl shapeCasts_S1x640000_S640000,
    StableHlo.binary main_arg0 main_arg4 main_v4 ((fun l r => Host.dotGeneral dot_S100000x128_S128x128_S100000x128_1_0_0_1_n_n none l r)),
    StableHlo.nullary main_c (constantI S_ 32 0#32),
    StableHlo.unary main_c main_v5 (broadcastInDim S640000 ![] bcast_S_S640000),
    StableHlo.binary main_v1 main_v5 main_v6 (cmpi .slt),
    StableHlo.nullary main_c_0 (constantI S_ 32 100000#32),
    StableHlo.unary main_c_0 main_v7 (broadcastInDim S640000 ![] bcast_S_S640000),
    StableHlo.binary main_v1 main_v7 main_v8 (addi),
    StableHlo.ternary main_v6 main_v8 main_v1 main_v9 (select),
    StableHlo.unary main_v9 main_v10 (broadcastInDim S640000x1 ![0] bcast_S640000_S640000x1_0),
    StableHlo.binary main_v4 main_v10 main_v11 ((fun x i => Host.gather gather_S100000x128_S640000x1_S640000x128_1_0_n_n_0_1_1128 x i)),
    StableHlo.binary main_arg0 main_arg5 main_v12 ((fun l r => Host.dotGeneral dot_S100000x128_S128x128_S100000x128_1_0_0_1_n_n none l r)),
    StableHlo.nullary main_c_1 (constantI S_ 32 0#32),
    StableHlo.unary main_c_1 main_v13 (broadcastInDim S640000 ![] bcast_S_S640000),
    StableHlo.binary main_v3 main_v13 main_v14 (cmpi .slt),
    StableHlo.nullary main_c_2 (constantI S_ 32 100000#32),
    StableHlo.unary main_c_2 main_v15 (broadcastInDim S640000 ![] bcast_S_S640000),
    StableHlo.binary main_v3 main_v15 main_v16 (addi),
    StableHlo.ternary main_v14 main_v16 main_v3 main_v17 (select),
    StableHlo.unary main_v17 main_v18 (broadcastInDim S640000x1 ![0] bcast_S640000_S640000x1_0),
    StableHlo.binary main_v12 main_v18 main_v19 ((fun x i => Host.gather gather_S100000x128_S640000x1_S640000x128_1_0_n_n_0_1_1128 x i)),
    StableHlo.binary main_v11 main_v19 main_v20 (addf),
    StableHlo.binary main_arg2 main_arg7 main_v21 ((fun l r => Host.dotGeneral dot_S640000x16_S16x128_S640000x128_1_0_0_1_n_n none l r)),
    StableHlo.unary main_arg8 main_v22 (broadcastInDim S1x128 ![1] bcast_S128_S1x128_1),
    StableHlo.unary main_v22 main_v23 (broadcastInDim S640000x128 ![0, 1] bcast_S1x128_S640000x128_0_1),
    StableHlo.binary main_v21 main_v23 main_v24 (addf),
    StableHlo.binary main_v20 main_v24 main_v25 (addf),
    StableHlo.binary main_arg1 main_arg6 main_v26 ((fun l r => Host.dotGeneral dot_S640000x128_S128x128_S640000x128_1_0_0_1_n_n none l r)),
    StableHlo.binary main_v25 main_v26 main_v27 (addf) ]

abbrev opsB : List (HloOp τ sig (Elt F)) :=
  [ StableHlo.nullary main_cst (constant S_ .f32 0x00000000#32),
    StableHlo.binary main_v27 main_cst main_v28 ((fun x v => Host.reduceAdd x v reducesTo_S640000x128_S128_d0 h_S_)),
    StableHlo.nullary main_cst_3 (constant S_ .f32 0x491C4000#32),
    StableHlo.unary main_cst_3 main_v29 (broadcastInDim S128 ![] bcast_S_S128),
    StableHlo.binary main_v28 main_v29 main_v30 (Host.divf),
    StableHlo.nullary main_c_4 (constantI S_ 32 0#32),
    StableHlo.TRef.nullary main_call0.cst (constant S_ .f32 0x00000000#32),
    StableHlo.TRef.binary (.of main_v27 : StableHlo.TRef sig ⟨S640000x128, .f32⟩) main_call0.cst main_call0.v0 (fun x v => Host.reduceAdd x v reducesTo_S640000x128_S128_d0 h_S_),
    StableHlo.TRef.unary main_call0.v0 main_call0.v1 (broadcastInDim S1x128 ![1] bcast_S128_S1x128_1),
    StableHlo.TRef.nullary main_call0.cst_0 (constant S_ .f32 0x491C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S640000x128 ![0, 1] bcast_S1x128_S640000x128_0_1),
    StableHlo.TRef.binary (.of main_v27 : StableHlo.TRef sig ⟨S640000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x491C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S640000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

abbrev opsC : List (HloOp τ sig (Elt F)) :=
  [ StableHlo.unary main_v30 main_v32 (broadcastInDim S1x128 ![1] bcast_S128_S1x128_1),
    StableHlo.unary main_v32 main_v33 (broadcastInDim S640000x128 ![0, 1] bcast_S1x128_S640000x128_0_1),
    StableHlo.binary main_v27 main_v33 main_v34 (subf),
    StableHlo.unary main_arg9 main_v35 (broadcastInDim S1x128 ![1] bcast_S128_S1x128_1),
    StableHlo.unary main_v35 main_v36 (broadcastInDim S640000x128 ![0, 1] bcast_S1x128_S640000x128_0_1),
    StableHlo.binary main_v36 main_v34 main_v37 (mulf),
    StableHlo.nullary main_cst_5 (constant S_ .f32 0x3727C5AC#32),
    StableHlo.unary main_cst_5 main_v38 (broadcastInDim S128 ![] bcast_S_S128),
    StableHlo.binary main_v31 main_v38 main_v39 (addf),
    StableHlo.unary main_v39 main_v40 (Host.rsqrt),
    StableHlo.unary main_v40 main_v41 (broadcastInDim S1x128 ![1] bcast_S128_S1x128_1),
    StableHlo.unary main_v41 main_v42 (broadcastInDim S640000x128 ![0, 1] bcast_S1x128_S640000x128_0_1),
    StableHlo.binary main_v37 main_v42 main_v43 (mulf),
    StableHlo.unary main_arg10 main_v44 (broadcastInDim S1x128 ![1] bcast_S128_S1x128_1),
    StableHlo.unary main_v44 main_v45 (broadcastInDim S640000x128 ![0, 1] bcast_S1x128_S640000x128_0_1),
    StableHlo.binary main_v43 main_v45 main_v46 (addf),
    StableHlo.TRef.nullary main_call1.cst (constant S_ .f32 0x00000000#32),
    StableHlo.TRef.unary main_call1.cst main_call1.v0 (broadcastInDim S640000x128 ![] bcast_S_S640000x128),
    StableHlo.TRef.binary (.of main_v46 : StableHlo.TRef sig ⟨S640000x128, .f32⟩) main_call1.v0 main_call1.v1 maximumf,
    StableHlo.nullary main_cst_6 (constant S_ .f32 0x00000000#32),
    StableHlo.unary main_cst_6 main_v48 (broadcastInDim S100000x128 ![] bcast_S_S100000x128),
    StableHlo.unary main_v3 main_v49 (broadcastInDim S640000x1 ![0] bcast_S640000_S640000x1_0),
    StableHlo.ternary main_v48 main_v49 main_v47 main_v50 ((fun x i u => Host.scatterAdd scatter_S100000x128_S640000x1_S640000x128_1_0_0_1 x i u)) ]

abbrev opsD : List (HloOp τ sig (Elt F)) :=
  [ StableHlo.binary main_v50 main_arg11 main_v51 ((fun l r => Host.dotGeneral dot_S100000x128_S128x256_S100000x256_1_0_0_1_n_n none l r)),
    StableHlo.nullary main_cst_7 (constant S_ .f32 0x00000000#32),
    StableHlo.binary main_v51 main_cst_7 main_v52 ((fun x v => Host.reduceAdd x v reducesTo_S100000x256_S256_d0 h_S_)),
    StableHlo.nullary main_cst_8 (constant S_ .f32 0x47C35000#32),
    StableHlo.unary main_cst_8 main_v53 (broadcastInDim S256 ![] bcast_S_S256),
    StableHlo.binary main_v52 main_v53 main_v54 (Host.divf),
    StableHlo.nullary main_c_9 (constantI S_ 32 0#32),
    StableHlo.TRef.nullary main_call2.cst (constant S_ .f32 0x00000000#32),
    StableHlo.TRef.binary (.of main_v51 : StableHlo.TRef sig ⟨S100000x256, .f32⟩) main_call2.cst main_call2.v0 (fun x v => Host.reduceAdd x v reducesTo_S100000x256_S256_d0 h_S_),
    StableHlo.TRef.unary main_call2.v0 main_call2.v1 (broadcastInDim S1x256 ![1] bcast_S256_S1x256_1),
    StableHlo.TRef.nullary main_call2.cst_0 (constant S_ .f32 0x47C35000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S100000x256 ![0, 1] bcast_S1x256_S100000x256_0_1),
    StableHlo.TRef.binary (.of main_v51 : StableHlo.TRef sig ⟨S100000x256, .f32⟩) main_call2.v4 main_call2.v5 subf,
    StableHlo.TRef.binary main_call2.v5 main_call2.v5 main_call2.v6 mulf,
    StableHlo.TRef.unary (.of main_c_9 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

abbrev opsE : List (HloOp τ sig (Elt F)) :=
  [ StableHlo.unary main_v54 main_v56 (broadcastInDim S1x256 ![1] bcast_S256_S1x256_1),
    StableHlo.unary main_v56 main_v57 (broadcastInDim S100000x256 ![0, 1] bcast_S1x256_S100000x256_0_1),
    StableHlo.binary main_v51 main_v57 main_v58 (subf),
    StableHlo.unary main_arg12 main_v59 (broadcastInDim S1x256 ![1] bcast_S256_S1x256_1),
    StableHlo.unary main_v59 main_v60 (broadcastInDim S100000x256 ![0, 1] bcast_S1x256_S100000x256_0_1),
    StableHlo.binary main_v60 main_v58 main_v61 (mulf),
    StableHlo.nullary main_cst_10 (constant S_ .f32 0x3727C5AC#32),
    StableHlo.unary main_cst_10 main_v62 (broadcastInDim S256 ![] bcast_S_S256),
    StableHlo.binary main_v55 main_v62 main_v63 (addf),
    StableHlo.unary main_v63 main_v64 (Host.rsqrt),
    StableHlo.unary main_v64 main_v65 (broadcastInDim S1x256 ![1] bcast_S256_S1x256_1),
    StableHlo.unary main_v65 main_v66 (broadcastInDim S100000x256 ![0, 1] bcast_S1x256_S100000x256_0_1),
    StableHlo.binary main_v61 main_v66 main_v67 (mulf),
    StableHlo.unary main_arg13 main_v68 (broadcastInDim S1x256 ![1] bcast_S256_S1x256_1),
    StableHlo.unary main_v68 main_v69 (broadcastInDim S100000x256 ![0, 1] bcast_S1x256_S100000x256_0_1),
    StableHlo.binary main_v67 main_v69 main_v70 (addf),
    StableHlo.TRef.nullary main_call3.cst (constant S_ .f32 0x00000000#32),
    StableHlo.TRef.unary main_call3.cst main_call3.v0 (broadcastInDim S100000x256 ![] bcast_S_S100000x256),
    StableHlo.TRef.binary (.of main_v70 : StableHlo.TRef sig ⟨S100000x256, .f32⟩) main_call3.v0 main_call3.v1 maximumf,
    StableHlo.binary main_v71 main_arg14 main_v72 ((fun l r => Host.dotGeneral dot_S100000x256_S256x256_S100000x256_1_0_0_1_n_n none l r)),
    StableHlo.nullary main_cst_11 (constant S_ .f32 0x00000000#32),
    StableHlo.binary main_v72 main_cst_11 main_v73 ((fun x v => Host.reduceAdd x v reducesTo_S100000x256_S256_d0 h_S_)),
    StableHlo.nullary main_cst_12 (constant S_ .f32 0x47C35000#32),
    StableHlo.unary main_cst_12 main_v74 (broadcastInDim S256 ![] bcast_S_S256),
    StableHlo.binary main_v73 main_v74 main_v75 (Host.divf),
    StableHlo.nullary main_c_13 (constantI S_ 32 0#32),
    StableHlo.TRef.nullary main_call4.cst (constant S_ .f32 0x00000000#32),
    StableHlo.TRef.binary (.of main_v72 : StableHlo.TRef sig ⟨S100000x256, .f32⟩) main_call4.cst main_call4.v0 (fun x v => Host.reduceAdd x v reducesTo_S100000x256_S256_d0 h_S_),
    StableHlo.TRef.unary main_call4.v0 main_call4.v1 (broadcastInDim S1x256 ![1] bcast_S256_S1x256_1),
    StableHlo.TRef.nullary main_call4.cst_0 (constant S_ .f32 0x47C35000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S100000x256 ![0, 1] bcast_S1x256_S100000x256_0_1),
    StableHlo.TRef.binary (.of main_v72 : StableHlo.TRef sig ⟨S100000x256, .f32⟩) main_call4.v4 main_call4.v5 subf,
    StableHlo.TRef.binary main_call4.v5 main_call4.v5 main_call4.v6 mulf,
    StableHlo.TRef.unary (.of main_c_13 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b) ]

abbrev opsF : List (HloOp τ sig (Elt F)) :=
  [ StableHlo.unary main_v75 main_v77 (broadcastInDim S1x256 ![1] bcast_S256_S1x256_1),
    StableHlo.unary main_v77 main_v78 (broadcastInDim S100000x256 ![0, 1] bcast_S1x256_S100000x256_0_1),
    StableHlo.binary main_v72 main_v78 main_v79 (subf),
    StableHlo.unary main_arg15 main_v80 (broadcastInDim S1x256 ![1] bcast_S256_S1x256_1),
    StableHlo.unary main_v80 main_v81 (broadcastInDim S100000x256 ![0, 1] bcast_S1x256_S100000x256_0_1),
    StableHlo.binary main_v81 main_v79 main_v82 (mulf),
    StableHlo.nullary main_cst_14 (constant S_ .f32 0x3727C5AC#32),
    StableHlo.unary main_cst_14 main_v83 (broadcastInDim S256 ![] bcast_S_S256),
    StableHlo.binary main_v76 main_v83 main_v84 (addf),
    StableHlo.unary main_v84 main_v85 (Host.rsqrt),
    StableHlo.unary main_v85 main_v86 (broadcastInDim S1x256 ![1] bcast_S256_S1x256_1),
    StableHlo.unary main_v86 main_v87 (broadcastInDim S100000x256 ![0, 1] bcast_S1x256_S100000x256_0_1),
    StableHlo.binary main_v82 main_v87 main_v88 (mulf),
    StableHlo.unary main_arg16 main_v89 (broadcastInDim S1x256 ![1] bcast_S256_S1x256_1),
    StableHlo.unary main_v89 main_v90 (broadcastInDim S100000x256 ![0, 1] bcast_S1x256_S100000x256_0_1),
    StableHlo.binary main_v88 main_v90 main_v91 (addf),
    StableHlo.TRef.nullary main_call5.cst (constant S_ .f32 0x00000000#32),
    StableHlo.TRef.unary main_call5.cst main_call5.v0 (broadcastInDim S100000x256 ![] bcast_S_S100000x256),
    StableHlo.TRef.binary (.of main_v91 : StableHlo.TRef sig ⟨S100000x256, .f32⟩) main_call5.v0 main_call5.v1 maximumf,
    StableHlo.binary main_v92 main_arg17 main_v93 ((fun l r => Host.dotGeneral dot_S100000x256_S256x128_S100000x128_1_0_0_1_n_n none l r)),
    StableHlo.unary main_arg18 main_v94 (broadcastInDim S1x128 ![1] bcast_S128_S1x128_1),
    StableHlo.unary main_v94 main_v95 (broadcastInDim S100000x128 ![0, 1] bcast_S1x128_S100000x128_0_1),
    StableHlo.binary main_v93 main_v95 main_v96 (addf) ]

abbrev ops : List (HloOp τ sig (Elt F)) := opsA ++ opsB ++ opsC ++ opsD ++ opsE ++ opsF

end Cert.ReferenceIdeal.Run

end
-- ==== Proof.RefRun.lean ====
import proofs.«419543_j12017318494892_2_alg».proof.Proof.RefOps

set_option synthInstance.maxSize 4096

noncomputable section

namespace Cert.ReferenceIdeal.Run

open Cert.ReferenceIdeal Cert.ReferenceIdeal.Gen Idealize.ShloMosaic Idealize.ShloMosaic.TcCoe Idealize.SL.Sem
  Idealize.ShloMosaic.StableHlo

variable {F : FTy → Type} [FloatOps F]

set_option maxRecDepth 8192 in
set_option maxHeartbeats 4000000 in
theorem part0_eq (c : Dev nD) : main_part0 (F := F) c = seq (opsA ++ opsB ++ opsC) := by
  simp only [main_part0, fn_var.body, fn_where.body, fn_relu.body, opsA, opsB, opsC, List.cons_append, List.nil_append, seq,
    bind_assoc, pure_bind]
  rfl

set_option maxRecDepth 8192 in
set_option maxHeartbeats 4000000 in
theorem part1_eq (c : Dev nD) : main_part1 (F := F) c = seq (opsD ++ opsE ++ opsF) := by
  simp only [main_part1, fn_var_0.body, fn_where_1.body, fn_relu_2.body, opsD, opsE, opsF, List.cons_append, List.nil_append,
    seq, bind_assoc, pure_bind]
  rfl

theorem main_eq (c : Dev nD) : main (F := F) c = seq ops := by
  have h : (ops : List (HloOp τ sig (Elt F))) = (opsA ++ opsB ++ opsC) ++ (opsD ++ opsE ++ opsF) := by
    simp only [ops, List.append_assoc]
  rw [h, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- An operation on buffers of the core that determines what it writes and writes one buffer, none of `P`. -/
def Leaves (P : List (Ref sig .tc)) (op : HloOp τ sig (Elt F)) : Prop :=
  op.bufs ⊆ tcRefs τ sig ∧ op.fresh = ∅ ∧ ∃ y ∉ P, op.writes = {Proc.devRef .tc y}

namespace Leaves

variable {P Q : List (Ref sig .tc)} {x a b c y : Ref sig .tc}

theorem mono {op : HloOp τ sig (Elt F)} (h : ∀ r ∈ P, r ∈ Q) : Leaves Q op → Leaves P op
  | ⟨hb, hf, y, hy, hw⟩ => ⟨hb, hf, y, fun m => hy (h _ m), hw⟩

theorem nullary (v : y.ty.Contents (Elt F)) (hy) (h : y ∉ P := by decide) : Leaves P (StableHlo.nullary (τ := τ) y v hy) :=
  ⟨nullary_bufs_sub .., rfl, y, h, rfl⟩
theorem unary (f : x.ty.Contents (Elt F) → y.ty.Contents (Elt F)) (hx hy) (h : y ∉ P := by decide) :
    Leaves P (StableHlo.unary (τ := τ) x y f hx hy) :=
  ⟨unary_bufs_sub .., rfl, y, h, rfl⟩
theorem binary (f : a.ty.Contents (Elt F) → b.ty.Contents (Elt F) → y.ty.Contents (Elt F)) (ha hb hy)
    (h : y ∉ P := by decide) : Leaves P (StableHlo.binary (τ := τ) a b y f ha hb hy) :=
  ⟨binary_bufs_sub .., rfl, y, h, rfl⟩
theorem ternary (f : c.ty.Contents (Elt F) → a.ty.Contents (Elt F) → b.ty.Contents (Elt F) → y.ty.Contents (Elt F))
    (hc ha hb hy) (h : y ∉ P := by decide) : Leaves P (StableHlo.ternary (τ := τ) c a b y f hc ha hb hy) :=
  ⟨ternary_bufs_sub .., rfl, y, h, rfl⟩
theorem reshape (he hn hx hy) (h : y ∉ P := by decide) : Leaves P (StableHlo.reshape (τ := τ) (Val := Elt F) x y he hn hx hy) :=
  ⟨reshape_bufs_sub .., rfl, y, h, rfl⟩

end Leaves

/-- A buffer of `P` is written by no operation of such a line, so it holds afterwards what it held before. -/
theorem keep {P : List (Ref sig .tc)} {l : List (HloOp τ sig (Elt F))} (h : l.Forall (Leaves P))
    (V : Valuation τ sig (Elt F)) {r : Ref sig .tc} (hr : r ∈ P) :
    after l V (no_index (Proc.devRef .tc r)) = V (Proc.devRef .tc r) :=
  after_of_forall_not_mem l V fun op hop hb => by
    obtain ⟨y, hy, hw⟩ := (List.forall_iff_forall_mem.1 h op hop).2.2
    rw [hw, Finset.mem_singleton] at hb
    exact hy (Proc.devRef_injective _ hb ▸ hr)

theorem okA : (opsA : List (HloOp τ sig (Elt F))).Forall (Leaves args) :=
  ⟨.unary .., .reshape .., .unary .., .reshape .., .binary .., .nullary .., .unary .., .binary .., .nullary ..,
    .unary .., .binary .., .ternary .., .unary .., .binary .., .binary .., .nullary .., .unary .., .binary ..,
    .nullary .., .unary .., .binary .., .ternary .., .unary .., .binary .., .binary .., .binary .., .unary ..,
    .unary .., .binary .., .binary .., .binary .., .binary ..⟩
theorem okB : (opsB : List (HloOp τ sig (Elt F))).Forall (Leaves (main_v3 :: main_v27 :: args)) :=
  ⟨.nullary .., .binary .., .nullary .., .unary .., .binary .., .nullary .., .nullary .., .binary .., .unary ..,
    .nullary .., .unary .., .binary .., .unary .., .binary .., .binary .., .unary .., .nullary .., .binary ..,
    .nullary .., .binary .., .unary .., .binary .., .nullary .., .binary .., .nullary .., .unary .., .unary ..,
    .ternary ..⟩
theorem okC : (opsC : List (HloOp τ sig (Elt F))).Forall (Leaves args) :=
  ⟨.unary .., .unary .., .binary .., .unary .., .unary .., .binary .., .nullary .., .unary .., .binary .., .unary ..,
    .unary .., .unary .., .binary .., .unary .., .unary .., .binary .., .nullary .., .unary .., .binary ..,
    .nullary .., .unary .., .unary .., .ternary ..⟩
theorem okD : (opsD : List (HloOp τ sig (Elt F))).Forall (Leaves args) :=
  ⟨.binary .., .nullary .., .binary .., .nullary .., .unary .., .binary .., .nullary .., .nullary .., .binary ..,
    .unary .., .nullary .., .unary .., .binary .., .unary .., .binary .., .binary .., .unary .., .nullary ..,
    .binary .., .nullary .., .binary .., .unary .., .binary .., .nullary .., .binary .., .nullary .., .unary ..,
    .unary .., .ternary ..⟩
theorem okE : (opsE : List (HloOp τ sig (Elt F))).Forall (Leaves args) :=
  ⟨.unary .., .unary .., .binary .., .unary .., .unary .., .binary .., .nullary .., .unary .., .binary .., .unary ..,
    .unary .., .unary .., .binary .., .unary .., .unary .., .binary .., .nullary .., .unary .., .binary ..,
    .binary .., .nullary .., .binary .., .nullary .., .unary .., .binary .., .nullary .., .nullary .., .binary ..,
    .unary .., .nullary .., .unary .., .binary .., .unary .., .binary .., .binary .., .unary .., .nullary ..,
    .binary .., .nullary .., .binary .., .unary .., .binary .., .nullary .., .binary .., .nullary .., .unary ..,
    .unary .., .ternary ..⟩
theorem okF : (opsF : List (HloOp τ sig (Elt F))).Forall (Leaves args) :=
  ⟨.unary .., .unary .., .binary .., .unary .., .unary .., .binary .., .nullary .., .unary .., .binary .., .unary ..,
    .unary .., .unary .., .binary .., .unary .., .unary .., .binary .., .nullary .., .unary .., .binary ..,
    .binary .., .unary .., .unary .., .binary ..⟩

theorem ops_ok : (ops : List (HloOp τ sig (Elt F))).Forall (Leaves args) :=
  List.forall_append.2 ⟨List.forall_append.2 ⟨List.forall_append.2 ⟨List.forall_append.2 ⟨List.forall_append.2
    ⟨okA, okB.imp fun _ => .mono fun _ m => .tail _ (.tail _ m)⟩, okC⟩, okD⟩, okE⟩, okF⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_ok.imp fun _ h => h.1) m ρ
    fun _ op h => (List.forall_iff_forall_mem.1 ops_ok op h).2.1

theorem ops_arg (V : Valuation τ sig (Elt F)) (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18]) :
    after ops V (Proc.devRef .tc b) = V (Proc.devRef .tc b) :=
  keep ops_ok V hb

end Cert.ReferenceIdeal.Run

end
-- ==== Proof.RefReads.lean ====
import proofs.«419543_j12017318494892_2_alg».proof.ReferenceIdeal
import proofs.«419543_j12017318494892_2_alg».proof.Proof.Gen.ReferenceIdeal
import proofs.«419543_j12017318494892_2_alg».proof.Proof.Spec
import proofs.«419543_j12017318494892_2_alg».proof.Proof.LibGatherRowsSpec
import Idealize.ShloMosaic.Lib.StackMember
import Idealize.ShloMosaic.Lib.IdealHost
import Idealize.ShloMosaic.Lib.KernelVsHost
import Idealize.ShloMosaic.Lib.Pipeline.Value

noncomputable section

open scoped BigOperators

namespace Cert.ReferenceIdeal.Reads

open Idealize.ShloMosaic Idealize.ShloMosaic.ValueIdx Cert.Spec Cert.ReferenceIdeal

/-- Arrays of rank two (of rank one) that agree at every pair of coordinates (at every coordinate) are equal. -/
theorem ext2 {n k : Nat} {α : Type} {f g : (⟨2, ![n, k]⟩ : Shape).Idx → α} (h : ∀ a b, f (ix2 a b) = g (ix2 a b)) : f = g :=
  funext fun i => by rw [eq_ix2 i]; exact h _ _
theorem ext1 {n : Nat} {α : Type} {f g : (⟨1, ![n]⟩ : Shape).Idx → α} (h : ∀ a, f (ix1 a) = g (ix1 a)) : f = g :=
  funext fun i => by rw [eq_ix1 i]; exact h _

/-- A product contracting the left columns against the right rows reads at `(a, b)` as `∑ l, X (a, l) * W (l, b)`. -/
theorem dot_eq_mm {n k p : Nat} (w : DotDims.WF ⟨2, ![n, k]⟩ ⟨2, ![k, p]⟩ ⟨2, ![n, p]⟩ [1] [0] [0] [1] [] [])
    (X : Mat n k) (W : Mat k p) : Host.dotGeneral (F := Ideal) ⟨[1], [0], [0], [1], [], [], w⟩ none X W = mm X W :=
  ext2 fun a b => StackMember.dotGeneral_plain_apply none X W a b

theorem gather_rows (T : Mat 100000 128) (idx : IdxCol 640000) :
    Host.gather gather_S100000x128_S640000x1_S640000x128_1_0_n_n_0_1_1128 T idx = gatherRows (by decide) T idx :=
  gather_rows_spec (by decide) _ rfl rfl rfl rfl rfl rfl rfl T idx

/-- Row `r` of the edge table, cut out as a slice and recast as a vector, reads at `e` the table's entry `(r, e)`. -/
theorem edgeRow_apply (ei : IVec S2x640000 32) (r : Nat) (hr : r < 2) {hs : S2x640000.Slices ![r, 0] S1x640000}
    {hc : S1x640000.ShapeCasts S640000} (e : Fin 640000) :
    shapeCast S640000 (extractStridedSlice S1x640000 ![r, 0] ei hs) hc (ix1 e) = ei (ix2 (⟨r, hr⟩ : Fin 2) e) := by
  refine (shapeCast_apply _ hc (ix1 e) (ix2 (0 : Fin 1) e) ?_).trans ?_
  · rw [Shape.rowMajor_val_two, Shape.rowMajor_val_one]
    show 0 * 640000 + e.val = e.val
    omega
  · refine extractStridedSlice_apply ![r, 0] ei hs (ix2 (0 : Fin 1) e) (ix2 (⟨r, hr⟩ : Fin 2) e) ?_
    intro a
    match a with
    | ⟨0, _⟩ => rfl
    | ⟨1, _⟩ => show e.val = 0 + e.val; omega

section Col

variable (ei : IVec S2x640000 32) (row : Fin 2) {s : IVec S640000 32} (hs : ∀ e : Fin 640000, s (ix1 e) = ei (ix2 row e))
  {h : S640000.BroadcastsInDim S640000x1 ![0]}

theorem col_apply (e : Fin 640000) (c : Fin 1) : broadcastInDim S640000x1 ![0] h s (ix2 e c) = s (ix1 e) := by
  refine broadcastInDim_apply ![0] h s (ix2 e c) (ix1 e) ?_
  intro a
  match a with
  | ⟨0, _⟩ => rfl

include hs in
/-- A vector that reads a row of the edge table, laid out as a column, is that row's start indices as they stand … -/
theorem plainCol_eq : broadcastInDim S640000x1 ![0] h s = colIdx ei row :=
  ext2 fun e c => (col_apply e c).trans (hs e)

include hs in
/-- … and, with a negative one first moved up by the table's 100000 rows, the wrapped ones. -/
theorem wrapCol_eq {hb : S_.BroadcastsInDim S640000 ![]} :
    broadcastInDim S640000x1 ![0] h
        (select (cmpi .slt s (broadcastInDim S640000 ![] hb (constantI S_ 32 0#32)))
          (addi s (broadcastInDim S640000 ![] hb (constantI S_ 32 100000#32))) s)
      = wrapIdx ei row := by
  refine ext2 fun e c => (col_apply e c).trans ?_
  show Scalar.select (IntOp.cmpi .slt (s (ix1 e)) 0#32) (IntOp.addi (s (ix1 e)) 100000#32) (s (ix1 e)) = _
  rw [hs e]
  rfl

end Col

section Stats

variable {n d : Nat} {h1 : (⟨1, ![d]⟩ : Shape).BroadcastsInDim ⟨2, ![1, d]⟩ ![1]}
  {h2 : (⟨2, ![1, d]⟩ : Shape).BroadcastsInDim ⟨2, ![n, d]⟩ ![0, 1]} {h0 : (⟨0, ![]⟩ : Shape).BroadcastsInDim ⟨2, ![1, d]⟩ ![]}
  {hs : (⟨0, ![]⟩ : Shape).BroadcastsInDim ⟨1, ![d]⟩ ![]} {hz : (⟨0, ![]⟩ : Shape).BroadcastsInDim ⟨2, ![n, d]⟩ ![]}
  {hr : (⟨2, ![n, d]⟩ : Shape).ReducesTo [0] ⟨1, ![d]⟩} {hu : 0 < (⟨0, ![]⟩ : Shape).numel} {w : BitVec 32}
  (X : Mat n d) (v : Row d) (a : Fin n) (j : Fin d)

theorem oneRow_apply : broadcastInDim ⟨2, ![1, d]⟩ ![1] h1 v (ix2 (0 : Fin 1) j) = v (ix1 j) := by
  refine broadcastInDim_apply ![1] h1 v (ix2 (0 : Fin 1) j) (ix1 j) ?_
  intro c
  match c with
  | ⟨0, _⟩ =>
    show j.val = if d = 1 then 0 else j.val
    split_ifs with hd
    · have := j.isLt; omega
    · rfl

/-- A row vector laid along every one of `n` rows reads at `(a, j)` its entry `j`. -/
theorem rowBcast_apply :
    broadcastInDim ⟨2, ![n, d]⟩ ![0, 1] h2 (broadcastInDim ⟨2, ![1, d]⟩ ![1] h1 v) (ix2 a j) = v (ix1 j) :=
  (broadcastInDim_oneRow_apply h2 _ a j).trans (oneRow_apply v j)

theorem addRow_eq : addf X (broadcastInDim ⟨2, ![n, d]⟩ ![0, 1] h2 (broadcastInDim ⟨2, ![1, d]⟩ ![1] h1 v)) = addRow X v := by
  refine ext2 fun a j => ?_
  rw [addf_apply, rowBcast_apply]
  rfl

theorem colsum_apply :
    Host.reduceAdd (F := Ideal) X (constant ⟨0, ![]⟩ .f32 0x00000000#32) hr hu (ix1 j) = z32 + ∑ a : Fin n, X (ix2 a j) := by
  refine (Ideal.hostReduceAdd_single hr ⟨hr.1, Nat.one_pos, hr.2⟩ X _ (ix1 j)).trans ?_
  refine congrArg (z32 + ·) (Finset.sum_congr rfl fun k _ => congrArg X ?_)
  funext c; apply Fin.ext
  match c with
  | ⟨0, _⟩ => rfl
  | ⟨1, _⟩ => rfl

theorem mean_eq :
    Host.divf (F := Ideal) (Host.reduceAdd X (constant ⟨0, ![]⟩ .f32 0x00000000#32) hr hu)
        (broadcastInDim ⟨1, ![d]⟩ ![] hs (constant ⟨0, ![]⟩ .f32 w))
      = meanR (Ideal.ofBits .f32 w) X := by
  refine ext1 fun j => ?_
  show Ideal.div (Host.reduceAdd (F := Ideal) X (constant ⟨0, ![]⟩ .f32 0x00000000#32) hr hu (ix1 j)) (Ideal.ofBits .f32 w) = _
  rw [colsum_apply]
  rfl

/-- The mean as the variance computes it again, laid along every row, reads at `(a, j)` the mean of column `j`. -/
theorem meanBcast_apply :
    broadcastInDim ⟨2, ![n, d]⟩ ![0, 1] h2
        (Host.divf (F := Ideal)
          (broadcastInDim ⟨2, ![1, d]⟩ ![1] h1 (Host.reduceAdd X (constant ⟨0, ![]⟩ .f32 0x00000000#32) hr hu))
          (broadcastInDim ⟨2, ![1, d]⟩ ![] h0 (constant ⟨0, ![]⟩ .f32 w))) (ix2 a j)
      = meanR (Ideal.ofBits .f32 w) X (ix1 j) := by
  refine (broadcastInDim_oneRow_apply h2 _ a j).trans ?_
  show Ideal.div (broadcastInDim ⟨2, ![1, d]⟩ ![1] h1 (Host.reduceAdd (F := Ideal) X (constant ⟨0, ![]⟩ .f32 0x00000000#32) hr hu)
      (ix2 (0 : Fin 1) j)) (Ideal.ofBits .f32 w) = _
  rw [oneRow_apply, colsum_apply]
  rfl

theorem sitofp_zero32 : (FloatOps.sitofp (F := Ideal) .f32 (0#32 : BitVec 32) : EReal) = 0 := by
  show ((((0#32 : BitVec 32).toInt : ℤ) : ℝ) : EReal) = 0
  simp

/-- For a positive row count the divisor is positive and the choice takes the quotient: the mean of the squared deviations. -/
theorem var_eq (hw : (0 : EReal) < Ideal.ofBits .f32 w) :
    select
        (broadcastInDim ⟨1, ![d]⟩ ![] hs
          (cmpf (F := Ideal) .ogt (subf (constant ⟨0, ![]⟩ .f32 w) (sitofp .f32 (constantI ⟨0, ![]⟩ 32 0#32)))
            (constant ⟨0, ![]⟩ .f32 0x00000000#32)))
        (Host.divf (F := Ideal)
          (Host.reduceAdd
            (mulf
              (subf X (broadcastInDim ⟨2, ![n, d]⟩ ![0, 1] h2
                (Host.divf (F := Ideal)
                  (broadcastInDim ⟨2, ![1, d]⟩ ![1] h1 (Host.reduceAdd X (constant ⟨0, ![]⟩ .f32 0x00000000#32) hr hu))
                  (broadcastInDim ⟨2, ![1, d]⟩ ![] h0 (constant ⟨0, ![]⟩ .f32 w)))))
              (subf X (broadcastInDim ⟨2, ![n, d]⟩ ![0, 1] h2
                (Host.divf (F := Ideal)
                  (broadcastInDim ⟨2, ![1, d]⟩ ![1] h1 (Host.reduceAdd X (constant ⟨0, ![]⟩ .f32 0x00000000#32) hr hu))
                  (broadcastInDim ⟨2, ![1, d]⟩ ![] h0 (constant ⟨0, ![]⟩ .f32 w))))))
            (constant ⟨0, ![]⟩ .f32 0x00000000#32) hr hu)
          (broadcastInDim ⟨1, ![d]⟩ ![] hs
            (subf (constant ⟨0, ![]⟩ .f32 w) (sitofp .f32 (constantI ⟨0, ![]⟩ 32 0#32)))))
        (broadcastInDim ⟨1, ![d]⟩ ![] hs (id (constant (F := Ideal) ⟨0, ![]⟩ .f32 0x7FC00000#32)))
      = varR (Ideal.ofBits .f32 w) X := by
  refine ext1 fun j => ?_
  have hc : (Ideal.ofBits .f32 w - FloatOps.sitofp (F := Ideal) .f32 (0#32 : BitVec 32) : EReal) = Ideal.ofBits .f32 w := by
    rw [sitofp_zero32, sub_zero]
  have hcond : FloatOps.cmpf (F := Ideal) (φ := .f32) .ogt (Ideal.ofBits .f32 w) (Ideal.ofBits .f32 0x00000000#32) = 1#1 := by
    rw [Ideal.ofBits_zero_f32]
    show Ideal.cmp .ogt _ _ = _
    simp [Ideal.cmp, hw]
  show Scalar.select
      (FloatOps.cmpf (F := Ideal) (φ := .f32) .ogt
        (Ideal.ofBits .f32 w - FloatOps.sitofp (F := Ideal) .f32 (0#32 : BitVec 32) : EReal) (Ideal.ofBits .f32 0x00000000#32))
      (Ideal.div
        (Host.reduceAdd (F := Ideal) (mulf _ _) (constant ⟨0, ![]⟩ .f32 0x00000000#32) hr hu (ix1 j))
        (Ideal.ofBits .f32 w - FloatOps.sitofp (F := Ideal) .f32 (0#32 : BitVec 32) : EReal))
      (Ideal.ofBits .f32 0x7FC00000#32) = _
  rw [hc, hcond, select_one, colsum_apply]
  refine congrArg (fun s => Ideal.div (z32 + s) (Ideal.ofBits .f32 w)) (Finset.sum_congr rfl fun a _ => ?_)
  rw [mulf_apply, subf_apply, meanBcast_apply]
  rfl

/-- Scale, mean, reciprocal root and shift are row vectors laid along the rows: at `(a, j)` each reads its entry `j`. -/
theorem bnrelu_eq (mu var g b : Row d) :
    maximumf
        (addf
          (mulf
            (mulf (broadcastInDim ⟨2, ![n, d]⟩ ![0, 1] h2 (broadcastInDim ⟨2, ![1, d]⟩ ![1] h1 g))
              (subf X (broadcastInDim ⟨2, ![n, d]⟩ ![0, 1] h2 (broadcastInDim ⟨2, ![1, d]⟩ ![1] h1 mu))))
            (broadcastInDim ⟨2, ![n, d]⟩ ![0, 1] h2 (broadcastInDim ⟨2, ![1, d]⟩ ![1] h1
              (Host.rsqrt (F := Ideal) (addf var (broadcastInDim ⟨1, ![d]⟩ ![] hs (constant ⟨0, ![]⟩ .f32 0x3727C5AC#32)))))))
          (broadcastInDim ⟨2, ![n, d]⟩ ![0, 1] h2 (broadcastInDim ⟨2, ![1, d]⟩ ![1] h1 b)))
        (broadcastInDim ⟨2, ![n, d]⟩ ![] hz (constant ⟨0, ![]⟩ .f32 0x00000000#32))
      = bnrelu X mu var g b := by
  refine ext2 fun a j => ?_
  rw [maximumf_apply, addf_apply, mulf_apply, mulf_apply, subf_apply, rowBcast_apply, rowBcast_apply, rowBcast_apply,
    rowBcast_apply]
  rfl

end Stats

theorem msg_eq {E : Nat} (gs gd : Mat E 128) (ea : Mat E 16) (er : Mat E 128) (We : Mat 16 128) (be : Row 128)
    (W3 : Mat 128 128) {h1 : (⟨1, ![128]⟩ : Shape).BroadcastsInDim ⟨2, ![1, 128]⟩ ![1]}
    {h2 : (⟨2, ![1, 128]⟩ : Shape).BroadcastsInDim ⟨2, ![E, 128]⟩ ![0, 1]} :
    addf (addf (addf gs gd)
        (addf (mm ea We) (broadcastInDim ⟨2, ![E, 128]⟩ ![0, 1] h2 (broadcastInDim ⟨2, ![1, 128]⟩ ![1] h1 be))))
      (mm er W3) = msg gs gd ea er We be W3 := by
  refine ext2 fun e j => ?_
  rw [addf_apply, addf_apply, addf_apply, addf_apply, rowBcast_apply]
  rfl

/-- The two row counts, 640000 and 100000 as 32-bit floats, are positive. -/
theorem nE_pos : (0 : EReal) < Ideal.ofBits .f32 0x491C4000#32 := by
  rw [show Ideal.ofBits .f32 0x491C4000#32 = ((640000 : ℝ) : EReal) by simp [Ideal.ofBits, Ideal.ieee, -EReal.coe_mul]; norm_num]
  exact EReal.coe_pos.mpr (by norm_num)
theorem nN_pos : (0 : EReal) < Ideal.ofBits .f32 0x47C35000#32 := by
  rw [show Ideal.ofBits .f32 0x47C35000#32 = ((100000 : ℝ) : EReal) by simp [Ideal.ofBits, Ideal.ieee, -EReal.coe_mul]; norm_num]
  exact EReal.coe_pos.mpr (by norm_num)

end Cert.ReferenceIdeal.Reads

end
-- ==== Proof.RefTail.lean ====
import proofs.«419543_j12017318494892_2_alg».proof.Proof.RefRun
import proofs.«419543_j12017318494892_2_alg».proof.Proof.RefReads

set_option synthInstance.maxSize 4096

noncomputable section

namespace Cert.ReferenceIdeal.RefValue

open Cert.ReferenceIdeal Cert.ReferenceIdeal.Gen Cert.ReferenceIdeal.Run Cert.ReferenceIdeal.Reads Cert.Spec Idealize.ShloMosaic
  Idealize.ShloMosaic.TcCoe Idealize.SL.Sem Idealize.ShloMosaic.StableHlo Idealize.ShloMosaic.ValueIdx

variable (V : Valuation τ sig (Elt Ideal))

/-- Each of the first two layers leaves its product, and that product's plain column mean and variance. -/
theorem stageD :
    (after opsD V main_v51 : Mat 100000 256) = mm (V main_v50) (V main_arg11)
      ∧ (after opsD V main_v54 : Row 256) = meanR nN (after opsD V main_v51)
      ∧ (after opsD V main_v55 : Row 256) = varR nN (after opsD V main_v51) := by
  refine ⟨?_, ?_, ?_⟩ <;> after_results_simp
  · exact dot_eq_mm _ _ _
  · exact mean_eq _
  · simp only [TRef.ofBuf, TRef.toBuf, cast_eq]
    exact var_eq _ nN_pos

theorem stageE :
    (after opsE V main_v72 : Mat 100000 256)
        = mm (bnrelu (V main_v51) (V main_v54) (V main_v55) (V main_arg12) (V main_arg13)) (V main_arg14)
      ∧ (after opsE V main_v75 : Row 256) = meanR nN (after opsE V main_v72)
      ∧ (after opsE V main_v76 : Row 256) = varR nN (after opsE V main_v72) := by
  refine ⟨?_, ?_, ?_⟩ <;> after_results_simp <;> simp only [TRef.ofBuf, TRef.toBuf, cast_eq]
  · rw [bnrelu_eq]
    exact dot_eq_mm _ _ _
  · exact mean_eq _
  · exact var_eq _ nN_pos

/-- The last layer leaves its product of the normalised, rectified second product, plus its bias. -/
theorem stageF :
    (after opsF V main_v96 : Mat 100000 128)
      = addRow (mm (bnrelu (V main_v72) (V main_v75) (V main_v76) (V main_arg15) (V main_arg16)) (V main_arg17))
          (V main_arg18) := by
  after_results_simp
  simp only [TRef.ofBuf, TRef.toBuf, cast_eq]
  rw [bnrelu_eq]
  exact (addRow_eq _ _).trans (congrArg (addRow · _) (dot_eq_mm _ _ _))

/-- The three stretches composed: what one reads of an earlier one, or of the arguments, none in between writes. -/
theorem tail_value :
    (after (opsD ++ opsE ++ opsF) V main_v96 : Mat 100000 128)
      = head (V main_v50) (V main_arg11) (statRN (mm (V main_v50) (V main_arg11))) (V main_arg12) (V main_arg13) (V main_arg14)
          (statRN (pre2 (V main_v50) (V main_arg11) (statRN (mm (V main_v50) (V main_arg11))) (V main_arg12) (V main_arg13)
            (V main_arg14)))
          (V main_arg15) (V main_arg16) (V main_arg17) (V main_arg18) := by
  rw [after_append, after_append, stageF, (stageE _).2.2, (stageE _).2.1, (stageE _).1, (stageD _).2.2, (stageD _).2.1,
    (stageD _).1]
  simp (disch := decide) only [keep (okE (F := Ideal)), keep (okD (F := Ideal))]
  rfl

end Cert.ReferenceIdeal.RefValue

end
-- ==== Proof.RefValue.lean ====
import proofs.«419543_j12017318494892_2_alg».proof.Proof.RefTail

set_option Elab.async false

noncomputable section

namespace Cert.ReferenceIdeal.RefValue

open Idealize.ShloMosaic Idealize.ShloMosaic.ValueIdx Idealize.ShloMosaic.StableHlo Idealize.ShloMosaic.TcCoe Idealize.SL.Sem
open Cert.Spec Cert.ReferenceIdeal Cert.ReferenceIdeal.Gen Cert.ReferenceIdeal.Run Cert.ReferenceIdeal.Reads

section Stages

variable (V : Valuation τ sig (Elt Ideal))

/-- The message array, from the argument arrays. -/
def msgOf : Mat 640000 128 :=
  msg (gatherRows (by decide) (mm (V main_arg0) (V main_arg4)) (wrapIdx (V main_arg3) 0))
    (gatherRows (by decide) (mm (V main_arg0) (V main_arg5)) (wrapIdx (V main_arg3) 1))
    (V main_arg2) (V main_arg1) (V main_arg7) (V main_arg8) (V main_arg6)

set_option maxHeartbeats 1000000 in
theorem stageA_msg : (after (opsA (F := Ideal)) V main_v27 : Mat 640000 128) = msgOf V := by
  after_results_simp
  refine (congrArg₂ addf
    (congrArg₂ addf
      (congrArg₂ addf
        ((congrArg₂ (Host.gather gather_S100000x128_S640000x1_S640000x128_1_0_n_n_0_1_1128) (dot_eq_mm _ _ _)
            (wrapCol_eq (V main_arg3) 0 fun e => edgeRow_apply _ 0 (by decide) e)).trans (gather_rows _ _))
        ((congrArg₂ (Host.gather gather_S100000x128_S640000x1_S640000x128_1_0_n_n_0_1_1128) (dot_eq_mm _ _ _)
            (wrapCol_eq (V main_arg3) 1 fun e => edgeRow_apply _ 1 (by decide) e)).trans (gather_rows _ _)))
      (congrArg (addf · _) (dot_eq_mm _ _ _)))
    (dot_eq_mm _ _ _)).trans (msg_eq (h1 := bcast_S128_S1x128_1) (h2 := bcast_S1x128_S640000x128_0_1) ..)

theorem stageA_row1 (e : Fin 640000) :
    (after (opsA (F := Ideal)) V main_v3 : IVec S640000 32) (ix1 e) = V main_arg3 (ix2 (1 : Fin 2) e) := by
  after_results_simp
  exact edgeRow_apply _ 1 (by decide) e

/-- The messages' plain column mean and variance. -/
theorem stageB_mean : (after (opsB (F := Ideal)) V main_v30 : Row 128) = meanR nE (V main_v27) := by
  after_results_simp
  exact mean_eq _

set_option maxHeartbeats 1000000 in
theorem stageB_var : (after (opsB (F := Ideal)) V main_v31 : Row 128) = varR nE (V main_v27) := by
  refine Eq.trans ?_ (var_eq (h1 := bcast_S128_S1x128_1) (h2 := bcast_S1x128_S640000x128_0_1) (h0 := bcast_S_S1x128)
    (hs := bcast_S_S128) (hr := reducesTo_S640000x128_S128_d0) (hu := h_S_) (V main_v27) nE_pos)
  after_results_simp
  simp only [TRef.ofBuf, TRef.toBuf, cast_eq]

/-- The messages normalised, rectified and summed into their destination nodes. -/
theorem stageC (ei : IVec S2x640000 32)
    (hs : ∀ e : Fin 640000, (V main_v3 : IVec S640000 32) (ix1 e) = ei (ix2 (1 : Fin 2) e)) :
    (after (opsC (F := Ideal)) V main_v50 : Mat 100000 128)
      = scat scatter_S100000x128_S640000x1_S640000x128_1_0_0_1 (colIdx ei 1)
          (bnrelu (V main_v27) (V main_v30) (V main_v31) (V main_arg9) (V main_arg10)) := by
  after_results_simp
  simp only [TRef.ofBuf, TRef.toBuf, cast_eq]
  rw [bnrelu_eq, plainCol_eq ei 1 hs]
  rfl

end Stages

/-- The six stretches composed: what one reads of an earlier one, or of the arguments, none in between writes. -/
theorem ref_value (V : Valuation τ sig (Elt Ideal)) :
    (after (ops (F := Ideal)) V (Proc.devRef .tc main_v96) : Mat 100000 128)
      = pipe statRE statRN statRN (scat scatter_S100000x128_S640000x1_S640000x128_1_0_0_1 (colIdx (V (Proc.devRef .tc main_arg3)) 1))
          (wrapIdx (V (Proc.devRef .tc main_arg3)) 0) (wrapIdx (V (Proc.devRef .tc main_arg3)) 1)
          (V (Proc.devRef .tc main_arg0)) (V (Proc.devRef .tc main_arg1)) (V (Proc.devRef .tc main_arg2))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13)) (V (Proc.devRef .tc main_arg14)) (V (Proc.devRef .tc main_arg15))
          (V (Proc.devRef .tc main_arg16)) (V (Proc.devRef .tc main_arg17)) (V (Proc.devRef .tc main_arg18)) := by
  have e : after (ops (F := Ideal)) V = after (opsD ++ opsE ++ opsF) (after opsC (after opsB (after opsA V))) := by
    simp only [ops, after_append]
  have hs (e : Fin 640000) : (after opsB (after opsA V) main_v3 : IVec S640000 32) (ix1 e)
      = V main_arg3 (ix2 (1 : Fin 2) e) := by
    rw [keep okB _ (r := main_v3) (by decide)]
    exact stageA_row1 V e
  rw [e, tail_value, stageC _ _ hs, stageB_mean, stageB_var]
  simp (disch := decide) only [keep (okC (F := Ideal)), keep (okB (F := Ideal)), keep (okA (F := Ideal))]
  rw [stageA_msg]
  rfl

end Cert.ReferenceIdeal.RefValue

end
-- ==== Proof.lean ====
import proofs.«419543_j12017318494892_2_alg».proof.Defs
import proofs.«419543_j12017318494892_2_alg».proof.Proof.Gen.Kernel
import proofs.«419543_j12017318494892_2_alg».proof.Proof.Gen.Kernel.Skeleton
import proofs.«419543_j12017318494892_2_alg».proof.Proof.Gen.Kernel.Launch
import proofs.«419543_j12017318494892_2_alg».proof.Proof.Gen.Kernel.Points
import proofs.«419543_j12017318494892_2_alg».proof.Proof.Gen.Kernel.Frame
import proofs.«419543_j12017318494892_2_alg».proof.Proof.Gen.KernelIdeal
import proofs.«419543_j12017318494892_2_alg».proof.Proof.Gen.KernelIdeal.Skeleton
import proofs.«419543_j12017318494892_2_alg».proof.Proof.Gen.KernelIdeal.Launch
import proofs.«419543_j12017318494892_2_alg».proof.Proof.Gen.KernelIdeal.Points
import proofs.«419543_j12017318494892_2_alg».proof.Proof.Gen.KernelIdeal.Frame
import proofs.«419543_j12017318494892_2_alg».proof.Proof.Gen.ReferenceIdeal
import proofs.«419543_j12017318494892_2_alg».proof.Proof.Gen.Pre_finite_inputs
import proofs.«419543_j12017318494892_2_alg».proof.Proof.KernelRun
import proofs.«419543_j12017318494892_2_alg».proof.Proof.KernelValue
import proofs.«419543_j12017318494892_2_alg».proof.Proof.Algebra
import proofs.«419543_j12017318494892_2_alg».proof.Proof.PreFacts
import proofs.«419543_j12017318494892_2_alg».proof.Proof.RefRun
import proofs.«419543_j12017318494892_2_alg».proof.Proof.RefValue
import Idealize.ShloMosaic.Adequacy
import Idealize.ShloMosaic.Init
import Idealize.ShloMosaic.Lib.StableHlo.Run

set_option maxRecDepth 16384

noncomputable section

namespace Cert.Proof

open Idealize.ShloMosaic Idealize.SL.Sem Idealize.ShloMosaic.StableHlo Cert.Spec Cert.ReferenceIdeal

theorem frame_k : Cert.frame_Kernel := fun m ρ _ => Cert.Kernel.Gen.frame m ρ
theorem frame_ki : Cert.frame_KernelIdeal := fun m ρ _ => Cert.KernelIdeal.Gen.frame m ρ

/-- No operation of the reference writes an argument, so its run leaves each one as it found it. -/
theorem frame_ri : Cert.frame_ReferenceIdeal := fun m ρ _ =>
  (θ_run defs _ _).mono (fun r h c =>
    have k : ∀ (b : Ref sig .tc) (hb : _), r.2.mem ((c.tc : Thread nD τ).loc b) = _ := fun b hb => (h c b).trans (Run.ops_arg _ b hb)
    ⟨k main_arg0 (by simp), k main_arg1 (by simp), k main_arg2 (by simp), k main_arg3 (by simp), k main_arg4 (by simp), k main_arg5 (by simp), k main_arg6 (by simp), k main_arg7 (by simp), k main_arg8 (by simp), k main_arg9 (by simp), k main_arg10 (by simp), k main_arg11 (by simp), k main_arg12 (by simp), k main_arg13 (by simp), k main_arg14 (by simp), k main_arg15 (by simp), k main_arg16 (by simp), k main_arg17 (by simp), k main_arg18 (by simp)⟩)
    (Run.run_main (F := Ideal) m ρ)

/-- On real arguments the two-core statistics are the plain ones, and an in-range edge index keeps the gathers clear of their fill. -/
theorem algebraic : Cert.algebraic_KernelIdeal_ReferenceIdeal := by
  intro m ρ m' ρ' hpre hagree
  refine ⟨fun c => Cert.KernelIdeal.Gen.W13 m ρ c (Proc.devRef .tc Cert.KernelIdeal.main_v65), Cert.KernelIdeal.RunResult.run_result m ρ, ?_⟩
  refine (θ_run defs _ _).mono (fun r h c => ?_) (Run.run_main (F := Ideal) m' ρ')
  obtain ⟨e0, e1, e2, e3, e4, e5, e6, e7, e8, e9, e10, e11, e12, e13, e14, e15, e16, e17, e18⟩ := hagree c
  obtain ⟨r0, r1, r2, hr, r4, r5, r6, r7, r8, r9, r10, r11, r12, r13, r14, r15, r16, r17, r18⟩ := Cert.PreFacts.of_pre _ _ _ _ _ _ _ _ _ _ _ _ _ _ _ _ _ _ _ (hpre c)
  have k : ∀ (b : Ref sig .tc) (hb : _), r.2.mem ((c.tc : Thread nD τ).loc b) = _ := fun b hb => (h c b).trans (Run.ops_arg _ b hb)
  refine ⟨?_, k main_arg0 (by simp), k main_arg1 (by simp), k main_arg2 (by simp), k main_arg3 (by simp), k main_arg4 (by simp), k main_arg5 (by simp), k main_arg6 (by simp), k main_arg7 (by simp), k main_arg8 (by simp), k main_arg9 (by simp), k main_arg10 (by simp), k main_arg11 (by simp), k main_arg12 (by simp), k main_arg13 (by simp), k main_arg14 (by simp), k main_arg15 (by simp), k main_arg16 (by simp), k main_arg17 (by simp), k main_arg18 (by simp)⟩
  refine ((h c main_v96).trans (RefValue.ref_value (launchContents m' c))).trans (Eq.trans ?_ (Cert.KernelIdeal.Value.result_eq m ρ c hr).symm)
  rw [pipe_K_eq_R _ (fun U hU => isReal_scat _ _ U hU) _ _ _ _ _ _ _ _ _ _ _ _ _ _ _ _ _ _ _ _ r0 r1 r2 r4 r5 r6 r7 r8 r9 r10 r11 r12 r13 r14 r15 r16 r17 r18,
    ← e0, ← e1, ← e2, ← e3, ← e4, ← e5, ← e6, ← e7, ← e8, ← e9, ← e10, ← e11, ← e12, ← e13, ← e14, ← e15, ← e16, ← e17, ← e18]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
